-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_c_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_c_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_c_25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 34
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .i32⟩
  | .hbm, ⟨13, _⟩ => ⟨S_, .i32⟩
  | .hbm, ⟨14, _⟩ => ⟨S_, .i32⟩
  | .hbm, ⟨15, _⟩ => ⟨S8192x1, .i32⟩
  | .hbm, ⟨16, _⟩ => ⟨S8192x1, .i32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S8192x1, .i32⟩
  | .hbm, ⟨22, _⟩ => ⟨S8192x1, .i32⟩
  | .hbm, ⟨23, _⟩ => ⟨S_, .i32⟩
  | .hbm, ⟨24, _⟩ => ⟨S8192x1, .i32⟩
  | .hbm, ⟨25, _⟩ => ⟨S8192x1, .i1⟩
  | .hbm, ⟨26, _⟩ => ⟨S8192x1, .i1⟩
  | .hbm, ⟨27, _⟩ => ⟨S_, .i32⟩
  | .hbm, ⟨28, _⟩ => ⟨S8192x1, .i32⟩
  | .hbm, ⟨29, _⟩ => ⟨S8192x1, .i32⟩
  | .hbm, ⟨30, _⟩ => ⟨S8192x1, .i32⟩
  | .hbm, ⟨31, _⟩ => ⟨S_, .i32⟩
  | .hbm, ⟨32, _⟩ => ⟨S_, .i32⟩
  | .hbm, ⟨33, _⟩ => ⟨S_, .i32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v8 : Ref sig .tc := ⟨.hbm, 30, rfl⟩
abbrev main_c_1 : Ref sig .tc := ⟨.hbm, 31, rfl⟩
abbrev main_v9 : Ref sig .tc := ⟨.hbm, 32, rfl⟩
abbrev main_c_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_cond5 (i : grid0.Coords) : BitVec 1 :=
  let arg1 : BitVec 32 := BitVec.ofNat 32 (i 1).val
  let c1_i32_18 : BitVec 32 := 1#32
  let v42 : BitVec 1 := Scalar.cmpi .eq arg1 c1_i32_18
  let arg2 : BitVec 32 := BitVec.ofNat 32 (i 2).val
  let c7_i32 : BitVec 32 := 7#32
  let v43 : BitVec 1 := Scalar.cmpi .eq arg2 c7_i32
  let v44 : BitVec 1 := Scalar.andi v42 v43
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  natLt_1_32 : 1 < 32
  reducesTo_S8192x1_S_d0_1 : S8192x1.ReducesTo [0, 1] S_
  h_S_ : 0 < S_.numel
  bcast_S_S8192x1 : S_.BroadcastsInDim S8192x1 (![] : Fin 0 → Fin S8192x1.rank)
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond5 i == 1#1) | 5 => fun i => !(k0_cond5 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .i1⟩
  | .hbm, ⟨33, _⟩ => ⟨S8192x8192, .i1⟩
  | .hbm, ⟨34, _⟩ => ⟨S8192x1, .f32⟩
  | .hbm, ⟨35, _⟩ => ⟨S8192x8192, .f32⟩
  | .hbm, ⟨36, _⟩ => ⟨S8192x8192, .i1⟩
  | .hbm, ⟨37, _⟩ => ⟨S8192x8192, .i1⟩
  | .hbm, ⟨38, _⟩ => ⟨S8192x8192, .i32⟩
  | .hbm, ⟨39, _⟩ => ⟨S_, .i32⟩
  | .hbm, ⟨40, _⟩ => ⟨S8192, .i32⟩
  | .hbm, ⟨41, _⟩ => ⟨S8192x8192, .i32⟩
  | .hbm, ⟨42, _⟩ => ⟨S_, .i32⟩
  | .hbm, ⟨43, _⟩ => ⟨S8192, .i32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .f32⟩
  | .hbm, ⟨88, _⟩ => ⟨S8192, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .i32⟩
  | .hbm, ⟨107, _⟩ => ⟨S_, .i32⟩
  | .hbm, ⟨108, _⟩ => ⟨S8192, .i32⟩
  | .hbm, ⟨109, _⟩ => ⟨S8192, .i32⟩
  | .hbm, ⟨110, _⟩ => ⟨S8192, .i32⟩
  | .hbm, ⟨111, _⟩ => ⟨S_, .i32⟩
  | .hbm, ⟨112, _⟩ => ⟨S8192, .i32⟩
  | .hbm, ⟨113, _⟩ => ⟨S8192, .i1⟩
  | .hbm, ⟨114, _⟩ => ⟨S8192, .i32⟩
  | .hbm, ⟨115, _⟩ => ⟨S8192, .i32⟩
  | .hbm, ⟨116, _⟩ => ⟨S_, .i32⟩
  | .hbm, ⟨117, _⟩ => ⟨S8192, .i32⟩
  | .hbm, ⟨118, _⟩ => ⟨S8192, .i1⟩
  | .hbm, ⟨119, _⟩ => ⟨S8192, .i1⟩
  | .hbm, ⟨120, _⟩ => ⟨S_, .i32⟩
  | .hbm, ⟨121, _⟩ => ⟨S8192, .i32⟩
  | .hbm, ⟨122, _⟩ => ⟨S8192, .i32⟩
  | .hbm, ⟨123, _⟩ => ⟨S8192, .i32⟩
  | .hbm, ⟨124, _⟩ => ⟨S_, .i32⟩
  | .hbm, ⟨125, _⟩ => ⟨S_, .i32⟩
  | .hbm, ⟨126, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_call4_v0 : Ref sig .tc := ⟨.hbm, 73, rfl⟩
abbrev main_call4_v1 : Ref sig .tc := ⟨.hbm, 74, rfl⟩
abbrev main_v47 : Ref sig .tc := ⟨.hbm, 75, rfl⟩
abbrev main_cst_14 : Ref sig .tc := ⟨.hbm, 76, rfl⟩
abbrev main_v48 : Ref sig .tc := ⟨.hbm, 77, rfl⟩
abbrev main_cst_15 : Ref sig .tc := ⟨.hbm, 78, rfl⟩
abbrev main_call5_v0 : Ref sig .tc := ⟨.hbm, 79, rfl⟩
abbrev main_call5_v1 : Ref sig .tc := ⟨.hbm, 80, rfl⟩
abbrev main_v49 : Ref sig .tc := ⟨.hbm, 81, rfl⟩
abbrev main_cst_16 : Ref sig .tc := ⟨.hbm, 82, rfl⟩
abbrev main_v50 : Ref sig .tc := ⟨.hbm, 83, rfl⟩
abbrev main_c_17 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_18 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_19 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_20 : Ref sig .tc := ⟨.hbm, 97, rfl⟩
abbrev main_call6_v0 : Ref sig .tc := ⟨.hbm, 98, rfl⟩
abbrev main_call6_v1 : Ref sig .tc := ⟨.hbm, 99, rfl⟩
abbrev main_v61 : Ref sig .tc := ⟨.hbm, 100, rfl⟩
abbrev main_v62 : Ref sig .tc := ⟨.hbm, 101, rfl⟩
abbrev main_cst_21 : Ref sig .tc := ⟨.hbm, 102, rfl⟩
abbrev main_v63 : Ref sig .tc := ⟨.hbm, 103, rfl⟩
abbrev main_cst_22 : Ref sig .tc := ⟨.hbm, 104, rfl⟩
abbrev main_v64 : Ref sig .tc := ⟨.hbm, 105, rfl⟩
abbrev main_c_23 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_call7_v5 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_c : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_c_0 : Ref sig .tc := ⟨.hbm, 120, rfl⟩
abbrev main_call7_v12 : Ref sig .tc := ⟨.hbm, 121, rfl⟩
abbrev main_call7_v13 : Ref sig .tc := ⟨.hbm, 122, rfl⟩
abbrev main_v65 : Ref sig .tc := ⟨.hbm, 123, rfl⟩
abbrev main_c_24 : Ref sig .tc := ⟨.hbm, 124, rfl⟩
abbrev main_v66 : Ref sig .tc := ⟨.hbm, 125, rfl⟩
abbrev main_c_25 : Ref sig .tc := ⟨.hbm, 126, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  natLt_1_32 : 1 < 32
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedArrayLaunch.lean ====
/- The launch theorem when two operands read one array: the array is held at two half shares inside the grid and whole outside it. -/
import Idealize.ShloMosaic.Lib.Pipeline.FrameSuffix

noncomputable section

namespace SharedArrayLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in

theorem held_tailRefs_arrBufs {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

theorem θ_run_frame_around_track_shared
    (hcell : Function.Injective (cellOf (nD := nD) (τ := τ) cfgs))
    (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hjoin : ∀ c, ((dats p c).arrays ((dats p c).arrAt · (cfgs p).N) : sProp 𝕄)
      ⊢ arrBufs (cfgs p).spec c (fun b => Wx c (Proc.devRef .tc b)))
    (hjoin' : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical

  have hZ : ∀ c, (unscopedRestP (Ix := Unit) (Name := ℕ) (U := UR sig nD τ) (Lvl := ℕ) Prefetch.none (cfgs p).spec c
        (fun b => Wx c (Proc.devRef .tc b)) : sProp 𝕄)
      = unscopedRestP Prefetch.none (cfgs p).spec c (fun b => V₀ c (Proc.devRef .tc b)) := fun c => by
    unfold unscopedRestP
    exact bigSep_congr fun b hb => by dsimp only; rw [hWx c b (Finset.mem_sdiff.mp hb).1]

  have hA : ∀ c, (arrBufs (Ix := Unit) (Name := ℕ) (U := UR sig nD τ) (Lvl := ℕ) (cfgs p).spec c
        (fun b => StableHlo.after opss.flatten (Wx c) (Proc.devRef .tc b)) : sProp 𝕄)
      = arrBufs (cfgs p).spec c (fun b => Wx c (Proc.devRef .tc b)) := fun c => by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop'⟩ := List.mem_flatten.mp hop
    exact hkeep ops hops op hop' w

  have hentry : ∀ c, iprop(boundary (c.tc : Thread nD τ) ∗ ((dats p c).arrays ((dats p c).arrAt · (cfgs p).N) : sProp 𝕄)
        ∗ unscopedRestP Prefetch.none (cfgs p).spec c (fun b => V₀ c (Proc.devRef .tc b)))
      ⊢ iprop(boundary (c.tc : Thread nD τ)
        ∗ (StableHlo.held (c.tc : Thread nD τ) (tailRefs sig Prefetch.none (cfgs p).spec) (Wx c) : sProp 𝕄)) := fun c => by
    rw [held_tailRefs_arrBufs, hZ c]
    iintro ⟨Hb, Ha, HZ⟩
    isplitl [Hb]; · iexact Hb
    isplitl [Ha]; · iapply (hjoin c); iexact Ha
    iexact HZ

  have hexit : ∀ c, (StableHlo.held (c.tc : Thread nD τ) (tailRefs sig Prefetch.none (cfgs p).spec)
        (StableHlo.after opss.flatten (Wx c)) : sProp 𝕄)
      ⊢ iprop((dats p c).arrays ((dats p c).arrAt · (cfgs p).N)
        ∗ unscopedRestP Prefetch.none (cfgs p).spec c (fun b => StableHlo.after opss.flatten (Wx c) (Proc.devRef .tc b))) := fun c => by
    rw [held_tailRefs_arrBufs, hA c]
    iintro ⟨Ha, HZ⟩
    isplitl [Ha]; · iapply (hjoin' c); iexact Ha
    iexact HZ
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (Wx c) (Proc.devRef .tc b)))
    (hX := fun c => by
      iintro ⟨HU, -, -, -, Hp, -⟩; imodintro
      isplitl [Hp]; · iexists _; iexact Hp
      iexact HU)
    (hin := fun c => by
      refine Entails.trans ?_ (hin c)
      unfold ΦA
      iintro ⟨Hp, -, Hr⟩
      isplitl [Hr] <;> iassumption)
    (hout := fun c => by
      refine (hout c).trans ?_
      rw [ownSems0_none]; unfold ΦA
      iintro ⟨Hr, Hp⟩
      isplitl [Hp]; · iexact Hp
      isplitr; · iempintro
      iexact Hr)
    (htail := fun c Q' => by
      rw [← List.append_nil (opss.map StableHlo.seq)]
      iintro ⟨Hk, Hb⟩
      ihave Hb' := (hentry c) $$ Hb
      iapply (wp_seqs_then (fun q => (cfgs q).toPCfg (Val := Val)) defs₀ 𝒱₀ c (tailRefs sig Prefetch.none (cfgs p).spec) [] opss hsub hfresh (Wx c)) $$ Hb'
      iintro Hb
      rw [chain_nil, wp_pure]
      imodintro
      iapply Hk
      icases Hb with ⟨-, H⟩
      iapply (hexit c); iexact H)
    (QY := fun c s => ∀ b ∈ restRefsP sig Prefetch.none (cfgs p).spec,
      s.mem ((c.tc : Thread nD τ).loc b) = StableHlo.after opss.flatten (Wx c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (Wx c) (Proc.devRef .tc b)) s')
      isplitl [HU] <;> iassumption)
    (hQ := fun s h c => ⟨(h c).1, rest_of_restP Prefetch.none (cfgs p).spec _ c _ s (fun k => k.elim0) (h c).2.1 (h c).2.2⟩)

end SharedArrayLaunch

end
-- ==== Proof.TileRuns.lean ====
/- What the five cases share: the body's five conditions as positions modulo 16, and the points at which the result blocks are stored. -/
import proofs.«180551_j55817394979145_1_alg».proof.Proof.Gen.KernelIdeal.Launch
import proofs.«180551_j55817394979145_1_alg».proof.Proof.Gen.KernelIdeal.Skeleton
import proofs.«180551_j55817394979145_1_alg».proof.Proof.Gen.KernelIdeal.Points
import proofs.«180551_j55817394979145_1_alg».proof.Proof.LibSharedArrayLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOps : List (List (HloOp τ sig (Elt F))) := [hostOps1, hostOps1_1, hostOps1_2, hostOps1_3, hostOps1_4]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev qShare : Fin cfg0.W → PosShare TreeShare :=
  fun | 0 => fullShare.left | 1 => fullShare.right | 2 => fullShare | 3 => fullShare | 4 => fullShare | 5 => fullShare
      | ⟨_ + 6, h⟩ => absurd h (Nat.not_lt.2 (Nat.le_add_left _ _))

abbrev cond0_1 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
abbrev cond0_2 (i : grid0.Coords) : Prop :=
  (Scalar.cmpi .ne (Scalar.extui (Scalar.cmpi .eq (BitVec.ofNat 32 (i 1).val) 0#32)) 0#32) = 1#1
abbrev cond0_3 (i : grid0.Coords) : Prop :=
  (Scalar.cmpi .ne (Scalar.extui (Scalar.andi (Scalar.cmpi .eq (BitVec.ofNat 32 (i 1).val) 1#32) (Scalar.cmpi .eq (BitVec.ofNat 32 (i 2).val) 0#32))) 0#32) = 1#1
abbrev cond0_4 (i : grid0.Coords) : Prop :=
  (Scalar.cmpi .ne (Scalar.extui (Scalar.cmpi .eq (BitVec.ofNat 32 (i 1).val) 1#32)) 0#32) = 1#1
abbrev cond0_5 (i : grid0.Coords) : Prop := k0_cond5 i = 1#1

theorem hcond0_1 : ∀ t : Fin cfg0.N, cond0_1 (grid0.coords t) ↔ t.val % 16 = 0 :=
  (by decide +kernel : ∀ t : Fin grid0.N, cond0_1 (grid0.coords t) ↔ t.val % 16 = 0)
theorem hcond0_2 : ∀ t : Fin cfg0.N, cond0_2 (grid0.coords t) ↔ t.val % 16 < 8 :=
  (by decide +kernel : ∀ t : Fin grid0.N, cond0_2 (grid0.coords t) ↔ t.val % 16 < 8)
theorem hcond0_3 : ∀ t : Fin cfg0.N, cond0_3 (grid0.coords t) ↔ t.val % 16 = 8 :=
  (by decide +kernel : ∀ t : Fin grid0.N, cond0_3 (grid0.coords t) ↔ t.val % 16 = 8)
theorem hcond0_4 : ∀ t : Fin cfg0.N, cond0_4 (grid0.coords t) ↔ 8 ≤ t.val % 16 :=
  (by decide +kernel : ∀ t : Fin grid0.N, cond0_4 (grid0.coords t) ↔ 8 ≤ t.val % 16)
theorem hcond0_5 : ∀ t : Fin cfg0.N, cond0_5 (grid0.coords t) ↔ t.val % 16 = 15 :=
  (by decide +kernel : ∀ t : Fin grid0.N, cond0_5 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_5 (grid0.coords t) → cfg0.idle 4 (grid0.coords t) = true := by decide +kernel
theorem idleAt0_5 : ∀ t : Fin cfg0.N, ¬cond0_5 (grid0.coords t) → cfg0.idle 5 (grid0.coords t) = true := by decide +kernel
theorem noFlush0_4 : ∀ t : Fin cfg0.N, ¬cond0_5 (grid0.coords t) → (cfg0.win 4).flush t = false := by decide +kernel
theorem noFlush0_5 : ∀ t : Fin cfg0.N, ¬cond0_5 (grid0.coords t) → (cfg0.win 5).flush t = false := by decide +kernel

theorem liveAt0_4 : ∀ t : Fin cfg0.N, cond0_5 (grid0.coords t) → cfg0.idle 4 (grid0.coords t) = false := by decide +kernel
theorem liveAt0_5 : ∀ t : Fin cfg0.N, cond0_5 (grid0.coords t) → cfg0.idle 5 (grid0.coords t) = false := by decide +kernel

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x1 .f32 := Memref.whole cc0_scratch4
abbrev scM0_5 : Memref sig .tc .vmem S1024x1 .f32 := Memref.whole cc0_scratch5
abbrev scM0_6 : Memref sig .tc .vmem S1024x1 .f32 := Memref.whole cc0_scratch6

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d)
          ∗ (∃ d, owns (c : Thread nD τ) scM0_6 fullShare d)) ∗ (∃ r, prngReg c r)) := by
  unfold Pipeline.ΦA; rw [scopedRest0_eq]
  simp only [scM0_0, scM0_1, scM0_2, scM0_3, scM0_4, scM0_5, scM0_6, owns_whole]; try rfl

end Cert.KernelIdeal.Tile

end
-- ==== Proof.TileRunA.lean ====
/- The body's run in case A (the first point of a row tile): both thresholds reset, then updated. -/
import proofs.«180551_j55817394979145_1_alg».proof.Proof.TileRuns
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (VS : View sig .tc .vmem S1024x1 .f32) (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)
  (hc1 : cond0_1 i) (hc2 : cond0_2 i) (hc3 : ¬cond0_3 i) (hc4 : ¬cond0_4 i) (hc5 : ¬cond0_5 i)
  (x0 : Vec F S1024x512 .bf16) (x1 : Vec F S1024x512 .bf16) (x2 : Vec F S1024x1 .i32) (x3 : Vec F S1x1024 .i32)

set_option maxHeartbeats 4000000 in
noncomputable def kernelRun0_A :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare xi4
            ∗ owns (c : Thread nD τ) arg8 fullShare xi5
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare xi4
                ∗ owns (c : Thread nD τ) arg8 fullShare xi5
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ d, owns (c : Thread nD τ) arg11 fullShare d)
                ∗ (∃ d, owns (c : Thread nD τ) arg12 fullShare d)
                ∗ (∃ d, owns (c : Thread nD τ) arg13 fullShare d)
                ∗ (∃ d, owns (c : Thread nD τ) arg14 fullShare d)
                ∗ (∃ d, owns (c : Thread nD τ) arg15 fullShare d)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    isplitl [HS1]
    · iexists _; iexact HS1
    isplitl [HS2]
    · iexists _; iexists fs2; isplitr; · ipureintro; rfl
      iexact HS2
    isplitl [HS3]
    · iexists _; iexists fs3; isplitr; · ipureintro; rfl
      iexact HS3
    isplitl [HS4]
    · iexists _; iexists fs4; isplitr; · ipureintro; rfl
      iexact HS4
    isplitl [HS5]
    · iexists _; iexists fs5; isplitr; · ipureintro; rfl
      iexact HS5
    iexists _; iexists fs6; isplitr; · ipureintro; rfl
    iexact HS6

theorem cover0_A_0 (y : S1024x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3).1, y ∈ pc.1.set :=
  View.cover_of_tiledL _ S1024x1.size (by sl_kernel_rfl) y

theorem cover0_A_1 (y : S1024x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3).2.1, y ∈ pc.1.set :=
  View.cover_of_tiledL _ S1024x1.size (by sl_kernel_rfl) y

theorem piece0_A_0 :
    VS.read (Elt F) (VS.writes (Elt F) VS.junk (kernelRun0_A c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3).1)
      = k0_pay20 i x2 x3 x0 x1 (k0_pay18 (F := F)) := by
  have hz : (![0, 0] : Fin 2 → Nat) = fun _ => 0 := funext fun a => by fin_cases a <;> rfl
  rw [View.read_writes_eq_canon _ _ _ (cover0_A_0 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3)]
  unfold kernelRun0_A; dsimp only; sl_unfold_words
  rw [View.canon_cons_unit_zero (S := S1024x1) hz, View.readCov_unit_zero (S := S1024x1) _ hz]
  simp only [View.readAt_eq_ld, harg3.read_unread, harg4.read_unread, harg5.read_unread, harg6.read_unread,
    View.ld_unit_zero (S := S1024x512) hz, View.ld_unit_zero (S := S1024x1) hz, View.ld_unit_zero (S := S1x1024) hz]

theorem piece0_A_1 :
    VS.read (Elt F) (VS.writes (Elt F) VS.junk (kernelRun0_A c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3).2.1)
      = k0_pay21 x2 x3 x0 x1 (k0_pay19 (F := F)) := by
  have hz : (![0, 0] : Fin 2 → Nat) = fun _ => 0 := funext fun a => by fin_cases a <;> rfl
  rw [View.read_writes_eq_canon _ _ _ (cover0_A_1 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3)]
  unfold kernelRun0_A; dsimp only; sl_unfold_words
  rw [View.canon_cons_unit_zero (S := S1024x1) hz, View.readCov_unit_zero (S := S1024x1) _ hz]
  simp only [View.readAt_eq_ld, harg3.read_unread, harg4.read_unread, harg5.read_unread, harg6.read_unread,
    View.ld_unit_zero (S := S1024x512) hz, View.ld_unit_zero (S := S1024x1) hz, View.ld_unit_zero (S := S1x1024) hz]

end Cert.KernelIdeal.Tile

end
-- ==== Proof.TileRunB.lean ====
/- The body's run in case B (points 1 to 7): both thresholds updated. -/
import proofs.«180551_j55817394979145_1_alg».proof.Proof.TileRunA
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (VS : View sig .tc .vmem S1024x1 .f32) (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)
  (hc1 : ¬cond0_1 i) (hc2 : cond0_2 i) (hc3 : ¬cond0_3 i) (hc4 : ¬cond0_4 i) (hc5 : ¬cond0_5 i)
  (x0 : Vec F S1024x512 .bf16) (x1 : Vec F S1024x512 .bf16) (x2 : Vec F S1024x1 .i32) (x3 : Vec F S1x1024 .i32) (xs0 : Vec F S1024x1 .f32) (xs1 : Vec F S1024x1 .f32)

set_option maxHeartbeats 4000000 in
noncomputable def kernelRun0_B :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare xi4
            ∗ owns (c : Thread nD τ) arg8 fullShare xi5
            ∗ owns (c : Thread nD τ) arg9 fullShare xs0
            ∗ owns (c : Thread nD τ) arg10 fullShare xs1
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare xi4
                ∗ owns (c : Thread nD τ) arg8 fullShare xi5
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ d, owns (c : Thread nD τ) arg11 fullShare d)
                ∗ (∃ d, owns (c : Thread nD τ) arg12 fullShare d)
                ∗ (∃ d, owns (c : Thread nD τ) arg13 fullShare d)
                ∗ (∃ d, owns (c : Thread nD τ) arg14 fullShare d)
                ∗ (∃ d, owns (c : Thread nD τ) arg15 fullShare d)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi4 xi5 E K => ?run⟩
  case run =>
    simp only [cc0__triplet_kernel_eq_skeleton]; unfold cc0__triplet_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    isplitl [HS1]
    · iexists _; iexact HS1
    isplitl [HS2]
    · iexists _; iexists fs2; isplitr; · ipureintro; rfl
      iexact HS2
    isplitl [HS3]
    · iexists _; iexists fs3; isplitr; · ipureintro; rfl
      iexact HS3
    isplitl [HS4]
    · iexists _; iexists fs4; isplitr; · ipureintro; rfl
      iexact HS4
    isplitl [HS5]
    · iexists _; iexists fs5; isplitr; · ipureintro; rfl
      iexact HS5
    iexists _; iexists fs6; isplitr; · ipureintro; rfl
    iexact HS6

theorem cover0_B_0 (y : S1024x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).1, y ∈ pc.1.set :=
  View.cover_of_tiledL _ S1024x1.size (by sl_kernel_rfl) y

theorem cover0_B_1 (y : S1024x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.1, y ∈ pc.1.set :=
  View.cover_of_tiledL _ S1024x1.size (by sl_kernel_rfl) y

theorem piece0_B_0 :
    VS.read (Elt F) (VS.writes (Elt F) VS.junk (kernelRun0_B c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).1)
      = k0_pay20 i x2 x3 x0 x1 xs0 := by
  have hz : (![0, 0] : Fin 2 → Nat) = fun _ => 0 := funext fun a => by fin_cases a <;> rfl
  rw [View.read_writes_eq_canon _ _ _ (cover0_B_0 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_B; dsimp only; sl_unfold_words
  rw [View.canon_unit_zero (S := S1024x1) hz]
  simp only [View.readAt_eq_ld, harg3.read_unread, harg4.read_unread, harg5.read_unread, harg6.read_unread, harg9.read_unread,
    View.ld_unit_zero (S := S1024x512) hz, View.ld_unit_zero (S := S1024x1) hz, View.ld_unit_zero (S := S1x1024) hz]

theorem piece0_B_1 :
    VS.read (Elt F) (VS.writes (Elt F) VS.junk (kernelRun0_B c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.1)
      = k0_pay21 x2 x3 x0 x1 xs1 := by
  have hz : (![0, 0] : Fin 2 → Nat) = fun _ => 0 := funext fun a => by fin_cases a <;> rfl
  rw [View.read_writes_eq_canon _ _ _ (cover0_B_1 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_B; dsimp only; sl_unfold_words
  rw [View.canon_unit_zero (S := S1024x1) hz]
  simp only [View.readAt_eq_ld, harg3.read_unread, harg4.read_unread, harg5.read_unread, harg6.read_unread, harg10.read_unread,
    View.ld_unit_zero (S := S1024x512) hz, View.ld_unit_zero (S := S1024x1) hz, View.ld_unit_zero (S := S1x1024) hz]

end Cert.KernelIdeal.Tile

end
-- ==== Proof.TileRunC.lean ====
/- The body's run in case C (point 8): the five accumulators reset, then updated. -/
import proofs.«180551_j55817394979145_1_alg».proof.Proof.TileRunB
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (VS : View sig .tc .vmem S1024x1 .f32) (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)
  (hc1 : ¬cond0_1 i) (hc2 : ¬cond0_2 i) (hc3 : cond0_3 i) (hc4 : cond0_4 i) (hc5 : ¬cond0_5 i)
  (x0 : Vec F S1024x512 .bf16) (x1 : Vec F S1024x512 .bf16) (x2 : Vec F S1024x1 .i32) (x3 : Vec F S1x1024 .i32) (xs0 : Vec F S1024x1 .f32) (xs1 : Vec F S1024x1 .f32)

set_option maxHeartbeats 4000000 in
noncomputable def kernelRun0_C :
    Σ' (LS2 : List (View.Piece (Elt F) S1024x1 .f32)), Σ' (LS3 : List (View.Piece (Elt F) S1024x1 .f32)), Σ' (LS4 : List (View.Piece (Elt F) S1024x1 .f32)), Σ' (LS5 : List (View.Piece (Elt F) S1024x1 .f32)), { LS6 : List (View.Piece (Elt F) S1024x1 .f32) //
      ∀ (xi4 xi5 : Vec F S1024x1 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare xi4
            ∗ owns (c : Thread nD τ) arg8 fullShare xi5
            ∗ owns (c : Thread nD τ) arg9 fullShare xs0
            ∗ owns (c : Thread nD τ) arg10 fullShare xs1
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare xi4
                ∗ owns (c : Thread nD τ) arg8 fullShare xi5
                ∗ owns (c : Thread nD τ) arg9 fullShare xs0
                ∗ owns (c : Thread nD τ) arg10 fullShare xs1
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)
                ∗ (∃ f, arg13.view.loc (c : Thread nD τ) ↦[arg13.view.set]{fullShare} arg13.view.writes (Elt F) f LS4)
                ∗ (∃ f, arg14.view.loc (c : Thread nD τ) ↦[arg14.view.set]{fullShare} arg14.view.writes (Elt F) f LS5)
                ∗ (∃ f, arg15.view.loc (c : Thread nD τ) ↦[arg15.view.set]{fullShare} arg15.view.writes (Elt F) f LS6)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 E K => ?run⟩
  case run =>
    simp only [cc0__triplet_kernel_eq_skeleton]; unfold cc0__triplet_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    isplitl [HS2]
    · iexists _; iexact HS2
    isplitl [HS3]
    · iexists _; iexact HS3
    isplitl [HS4]
    · iexists _; iexact HS4
    isplitl [HS5]
    · iexists _; iexact HS5
    iexists _; iexact HS6

private theorem zeroOrigin : (![0, 0] : Fin 2 → Nat) = fun _ => 0 := funext fun a => by fin_cases a <;> rfl

theorem cover0_C_2 (y : S1024x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).1, y ∈ pc.1.set :=
  View.cover_of_tiledL _ S1024x1.size (by sl_kernel_rfl) y

theorem piece0_C_2 :
    VS.read (Elt F) (VS.writes (Elt F) VS.junk (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).1)
      = k0_pay11 (k0_pay15 i x2 x3) (k0_pay17 x0 x1) xs1 (k0_pay1 (F := F)) := by
  rw [View.read_writes_eq_canon _ _ _ (cover0_C_2 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_C
  dsimp only
  sl_unfold_words
  rw [View.canon_cons_unit_zero (S := S1024x1) zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_C_3 (y : S1024x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.1, y ∈ pc.1.set :=
  View.cover_of_tiledL _ S1024x1.size (by sl_kernel_rfl) y

theorem piece0_C_3 :
    VS.read (Elt F) (VS.writes (Elt F) VS.junk (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.1)
      = k0_pay12 (k0_pay15 i x2 x3) (k0_pay17 x0 x1) xs1 (k0_pay2 (F := F)) := by
  rw [View.read_writes_eq_canon _ _ _ (cover0_C_3 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_C
  dsimp only
  sl_unfold_words
  rw [View.canon_cons_unit_zero (S := S1024x1) zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_C_4 (y : S1024x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.1, y ∈ pc.1.set :=
  View.cover_of_tiledL _ S1024x1.size (by sl_kernel_rfl) y

theorem piece0_C_4 :
    VS.read (Elt F) (VS.writes (Elt F) VS.junk (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.1)
      = k0_pay13 (k0_pay16 x2 x3) (k0_pay17 x0 x1) xs0 (k0_pay3 (F := F)) := by
  rw [View.read_writes_eq_canon _ _ _ (cover0_C_4 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_C
  dsimp only
  sl_unfold_words
  rw [View.canon_cons_unit_zero (S := S1024x1) zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_C_5 (y : S1024x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.2.1, y ∈ pc.1.set :=
  View.cover_of_tiledL _ S1024x1.size (by sl_kernel_rfl) y

theorem piece0_C_5 :
    VS.read (Elt F) (VS.writes (Elt F) VS.junk (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.2.1)
      = k0_pay6 (k0_pay17 x0 x1) (k0_pay9 (k0_pay16 x2 x3) (k0_pay17 x0 x1) xs0) (k0_pay4 (F := F)) := by
  rw [View.read_writes_eq_canon _ _ _ (cover0_C_5 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_C
  dsimp only
  sl_unfold_words
  rw [View.canon_cons_unit_zero (S := S1024x1) zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_C_6 (y : S1024x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.2.2.1, y ∈ pc.1.set :=
  View.cover_of_tiledL _ S1024x1.size (by sl_kernel_rfl) y

theorem piece0_C_6 :
    VS.read (Elt F) (VS.writes (Elt F) VS.junk (kernelRun0_C c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1).2.2.2.2.1)
      = k0_pay7 (k0_pay17 x0 x1) (k0_pay9 (k0_pay16 x2 x3) (k0_pay17 x0 x1) xs0) (k0_pay5 (F := F)) := by
  rw [View.read_writes_eq_canon _ _ _ (cover0_C_6 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1)]
  unfold kernelRun0_C
  dsimp only
  sl_unfold_words
  rw [View.canon_cons_unit_zero (S := S1024x1) zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

end Cert.KernelIdeal.Tile

end
-- ==== Proof.TileRunD.lean ====
/- The body's run in case D (points 9 to 14): the five accumulators updated. -/
import proofs.«180551_j55817394979145_1_alg».proof.Proof.TileRuns
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (VS : View sig .tc .vmem S1024x1 .f32) (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)
  (hc1 : ¬cond0_1 i) (hc2 : ¬cond0_2 i) (hc3 : ¬cond0_3 i) (hc4 : cond0_4 i) (hc5 : ¬cond0_5 i)
  (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) (xs6 : Vec F S1024x1 .f32)

set_option maxHeartbeats 4000000 in
noncomputable def kernelRun0_D :
    Σ' (LS2 : List (View.Piece (Elt F) S1024x1 .f32)), Σ' (LS3 : List (View.Piece (Elt F) S1024x1 .f32)), Σ' (LS4 : List (View.Piece (Elt F) S1024x1 .f32)), Σ' (LS5 : List (View.Piece (Elt F) S1024x1 .f32)), { LS6 : List (View.Piece (Elt F) S1024x1 .f32) //
      ∀ (xi4 xi5 : Vec F S1024x1 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare xi4
            ∗ owns (c : Thread nD τ) arg8 fullShare xi5
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ owns (c : Thread nD τ) arg13 fullShare xs4
            ∗ owns (c : Thread nD τ) arg14 fullShare xs5
            ∗ owns (c : Thread nD τ) arg15 fullShare xs6
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare xi4
                ∗ owns (c : Thread nD τ) arg8 fullShare xi5
                ∗ owns (c : Thread nD τ) arg9 fullShare xs0
                ∗ owns (c : Thread nD τ) arg10 fullShare xs1
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)
                ∗ (∃ f, arg13.view.loc (c : Thread nD τ) ↦[arg13.view.set]{fullShare} arg13.view.writes (Elt F) f LS4)
                ∗ (∃ f, arg14.view.loc (c : Thread nD τ) ↦[arg14.view.set]{fullShare} arg14.view.writes (Elt F) f LS5)
                ∗ (∃ f, arg15.view.loc (c : Thread nD τ) ↦[arg15.view.set]{fullShare} arg15.view.writes (Elt F) f LS6)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi4 xi5 E K => ?run⟩
  case run =>
    simp only [cc0__triplet_kernel_eq_skeleton]; unfold cc0__triplet_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0; obtain rfl := harg10.eq_unread hfs1
    obtain rfl := harg11.eq_unread hfs2; obtain rfl := harg12.eq_unread hfs3; obtain rfl := harg13.eq_unread hfs4; obtain rfl := harg14.eq_unread hfs5; obtain rfl := harg15.eq_unread hfs6
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    isplitl [HS2]
    · iexists _; iexact HS2
    isplitl [HS3]
    · iexists _; iexact HS3
    isplitl [HS4]
    · iexists _; iexact HS4
    isplitl [HS5]
    · iexists _; iexact HS5
    iexists _; iexact HS6

private theorem zeroOrigin : (![0, 0] : Fin 2 → Nat) = fun _ => 0 := funext fun a => by fin_cases a <;> rfl

theorem cover0_D_2 (y : S1024x1.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).1, y ∈ pc.1.set :=
  View.cover_of_tiledL _ S1024x1.size (by sl_kernel_rfl) y

theorem piece0_D_2 :
    VS.read (Elt F) (VS.writes (Elt F) VS.junk (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).1)
      = k0_pay11 (k0_pay15 i x2 x3) (k0_pay17 x0 x1) xs1 xs2 := by
  rw [View.read_writes_eq_canon _ _ _ (cover0_D_2 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_D
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_D_3 (y : S1024x1.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.1, y ∈ pc.1.set :=
  View.cover_of_tiledL _ S1024x1.size (by sl_kernel_rfl) y

theorem piece0_D_3 :
    VS.read (Elt F) (VS.writes (Elt F) VS.junk (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.1)
      = k0_pay12 (k0_pay15 i x2 x3) (k0_pay17 x0 x1) xs1 xs3 := by
  rw [View.read_writes_eq_canon _ _ _ (cover0_D_3 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_D
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_D_4 (y : S1024x1.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.1, y ∈ pc.1.set :=
  View.cover_of_tiledL _ S1024x1.size (by sl_kernel_rfl) y

theorem piece0_D_4 :
    VS.read (Elt F) (VS.writes (Elt F) VS.junk (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.1)
      = k0_pay13 (k0_pay16 x2 x3) (k0_pay17 x0 x1) xs0 xs4 := by
  rw [View.read_writes_eq_canon _ _ _ (cover0_D_4 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_D
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_D_5 (y : S1024x1.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.1, y ∈ pc.1.set :=
  View.cover_of_tiledL _ S1024x1.size (by sl_kernel_rfl) y

theorem piece0_D_5 :
    VS.read (Elt F) (VS.writes (Elt F) VS.junk (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.1)
      = k0_pay6 (k0_pay17 x0 x1) (k0_pay9 (k0_pay16 x2 x3) (k0_pay17 x0 x1) xs0) xs5 := by
  rw [View.read_writes_eq_canon _ _ _ (cover0_D_5 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_D
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_D_6 (y : S1024x1.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.1, y ∈ pc.1.set :=
  View.cover_of_tiledL _ S1024x1.size (by sl_kernel_rfl) y

theorem piece0_D_6 :
    VS.read (Elt F) (VS.writes (Elt F) VS.junk (kernelRun0_D c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.1)
      = k0_pay7 (k0_pay17 x0 x1) (k0_pay9 (k0_pay16 x2 x3) (k0_pay17 x0 x1) xs0) xs6 := by
  rw [View.read_writes_eq_canon _ _ _ (cover0_D_6 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_D
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

end Cert.KernelIdeal.Tile

end
-- ==== Proof.TileRunE.lean ====
/- The body's run in case E (point 15): the five accumulators updated and the two result blocks stored. -/
import proofs.«180551_j55817394979145_1_alg».proof.Proof.TileRuns
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (VS : View sig .tc .vmem S1024x1 .f32) (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)
  (hc1 : ¬cond0_1 i) (hc2 : ¬cond0_2 i) (hc3 : ¬cond0_3 i) (hc4 : cond0_4 i) (hc5 : cond0_5 i)
  (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) (xs6 : Vec F S1024x1 .f32)

set_option maxHeartbeats 4000000 in
noncomputable def kernelRun0_E :
    Σ' (L4 : List (View.Piece (Elt F) S1024x1 .f32)), Σ' (L5 : List (View.Piece (Elt F) S1024x1 .f32)), Σ' (LS2 : List (View.Piece (Elt F) S1024x1 .f32)), Σ' (LS3 : List (View.Piece (Elt F) S1024x1 .f32)), Σ' (LS4 : List (View.Piece (Elt F) S1024x1 .f32)), Σ' (LS5 : List (View.Piece (Elt F) S1024x1 .f32)), { LS6 : List (View.Piece (Elt F) S1024x1 .f32) //
      ∀ (xi4 xi5 : Vec F S1024x1 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare xi4
            ∗ owns (c : Thread nD τ) arg8 fullShare xi5
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ owns (c : Thread nD τ) arg13 fullShare xs4
            ∗ owns (c : Thread nD τ) arg14 fullShare xs5
            ∗ owns (c : Thread nD τ) arg15 fullShare xs6
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)
                ∗ owns (c : Thread nD τ) arg9 fullShare xs0
                ∗ owns (c : Thread nD τ) arg10 fullShare xs1
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)
                ∗ (∃ f, arg13.view.loc (c : Thread nD τ) ↦[arg13.view.set]{fullShare} arg13.view.writes (Elt F) f LS4)
                ∗ (∃ f, arg14.view.loc (c : Thread nD τ) ↦[arg14.view.set]{fullShare} arg14.view.writes (Elt F) f LS5)
                ∗ (∃ f, arg15.view.loc (c : Thread nD τ) ↦[arg15.view.set]{fullShare} arg15.view.writes (Elt F) f LS6)) -∗ K ⟨⟩))
          ⊢ wp frame (wpE (defs₀ (F := F)) Variants.none c none) E (cc0__triplet_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun xi4 xi5 E K => ?run⟩
  case run =>
    simp only [cc0__triplet_kernel_eq_skeleton]; unfold cc0__triplet_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hfs0; obtain rfl := harg10.eq_unread hfs1
    obtain rfl := harg11.eq_unread hfs2; obtain rfl := harg12.eq_unread hfs3; obtain rfl := harg13.eq_unread hfs4; obtain rfl := harg14.eq_unread hfs5; obtain rfl := harg15.eq_unread hfs6
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    isplitl [HS0]
    · iexists _; isplitr; · ipureintro; exact harg9.read_unread _
      iexact HS0
    isplitl [HS1]
    · iexists _; isplitr; · ipureintro; exact harg10.read_unread _
      iexact HS1
    isplitl [HS2]
    · iexists _; iexact HS2
    isplitl [HS3]
    · iexists _; iexact HS3
    isplitl [HS4]
    · iexists _; iexact HS4
    isplitl [HS5]
    · iexists _; iexact HS5
    iexists _; iexact HS6

private theorem zeroOrigin : (![0, 0] : Fin 2 → Nat) = fun _ => 0 := funext fun a => by fin_cases a <;> rfl

theorem cover0_E_out4 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).1, y ∈ pc.1.set :=
  View.cover_of_tiledL _ S1024x1.size (by sl_kernel_rfl) y

theorem piece0_E_out4 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).1)
      = k0_pay8 (k0_pay12 (k0_pay15 i x2 x3) (k0_pay17 x0 x1) xs1 xs3)
          (k0_pay13 (k0_pay16 x2 x3) (k0_pay17 x0 x1) xs0 xs4)
          (k0_pay11 (k0_pay15 i x2 x3) (k0_pay17 x0 x1) xs1 xs2)
          (k0_pay7 (k0_pay17 x0 x1) (k0_pay9 (k0_pay16 x2 x3) (k0_pay17 x0 x1) xs0) xs6)
          (k0_pay6 (k0_pay17 x0 x1) (k0_pay9 (k0_pay16 x2 x3) (k0_pay17 x0 x1) xs0) xs5) := by
  rw [View.read_writes_eq_canon _ _ _ (cover0_E_out4 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_out5 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.1, y ∈ pc.1.set :=
  View.cover_of_tiledL _ S1024x1.size (by sl_kernel_rfl) y

theorem piece0_E_out5 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.1)
      = k0_pay13 (k0_pay16 x2 x3) (k0_pay17 x0 x1) xs0 xs4 := by
  rw [View.read_writes_eq_canon _ _ _ (cover0_E_out5 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_2 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.1, y ∈ pc.1.set :=
  View.cover_of_tiledL _ S1024x1.size (by sl_kernel_rfl) y

theorem piece0_E_2 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.1)
      = k0_pay11 (k0_pay15 i x2 x3) (k0_pay17 x0 x1) xs1 xs2 := by
  rw [View.read_writes_eq_canon _ _ _ (cover0_E_2 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_3 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.1, y ∈ pc.1.set :=
  View.cover_of_tiledL _ S1024x1.size (by sl_kernel_rfl) y

theorem piece0_E_3 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.1)
      = k0_pay12 (k0_pay15 i x2 x3) (k0_pay17 x0 x1) xs1 xs3 := by
  rw [View.read_writes_eq_canon _ _ _ (cover0_E_3 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_4 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.1, y ∈ pc.1.set :=
  View.cover_of_tiledL _ S1024x1.size (by sl_kernel_rfl) y

theorem piece0_E_4 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.1)
      = k0_pay13 (k0_pay16 x2 x3) (k0_pay17 x0 x1) xs0 xs4 := by
  rw [View.read_writes_eq_canon _ _ _ (cover0_E_4 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_5 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.2.1, y ∈ pc.1.set :=
  View.cover_of_tiledL _ S1024x1.size (by sl_kernel_rfl) y

theorem piece0_E_5 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.2.1)
      = k0_pay6 (k0_pay17 x0 x1) (k0_pay9 (k0_pay16 x2 x3) (k0_pay17 x0 x1) xs0) xs5 := by
  rw [View.read_writes_eq_canon _ _ _ (cover0_E_5 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

theorem cover0_E_6 (y : S1024x1.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.2.2.1, y ∈ pc.1.set :=
  View.cover_of_tiledL _ S1024x1.size (by sl_kernel_rfl) y

theorem piece0_E_6 :
    VS.read (Elt F) (VS.writes (Elt F) VS.junk (kernelRun0_E c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6).2.2.2.2.2.2.1)
      = k0_pay7 (k0_pay17 x0 x1) (k0_pay9 (k0_pay16 x2 x3) (k0_pay17 x0 x1) xs0) xs6 := by
  rw [View.read_writes_eq_canon _ _ _ (cover0_E_6 c i arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x0 x1 x2 x3 xs0 xs1 xs2 xs3 xs4 xs5 xs6)]
  unfold kernelRun0_E
  dsimp only
  sl_unfold_words
  rw [View.canon_unit_zero zeroOrigin]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x1) zeroOrigin, View.ld_unit_zero (S := S1024x512) zeroOrigin, View.ld_unit_zero (S := S1x1024) zeroOrigin, View.readCov_unit_zero (S := S1024x1) _ zeroOrigin]

end Cert.KernelIdeal.Tile

end
-- ==== Proof.TileSteps.lean ====
/- The pure recursion: the nine carried blocks, one step per grid point. -/
import proofs.«180551_j55817394979145_1_alg».proof.Proof.Gen.KernelIdeal.Skeleton
import Idealize.ShloMosaic.Lib.ValueIdx

noncomputable section

namespace Cert.KernelIdeal.Tile

open Idealize.ShloMosaic Idealize.ShloMosaic.ValueIdx Cert.KernelIdeal Cert.KernelIdeal.Gen

variable {F : FTy → Type} [FloatOps F]

structure Scr (F : FTy → Type) [FloatOps F] where

  o4 : Vec F S1024x1 .f32
  o5 : Vec F S1024x1 .f32

  s0 : Vec F S1024x1 .f32
  s1 : Vec F S1024x1 .f32

  s2 : Vec F S1024x1 .f32
  s3 : Vec F S1024x1 .f32
  s4 : Vec F S1024x1 .f32
  s5 : Vec F S1024x1 .f32
  s6 : Vec F S1024x1 .f32

structure Pt (F : FTy → Type) [FloatOps F] where
  i : grid0.Coords
  er : Vec F S1024x512 .bf16
  ec : Vec F S1024x512 .bf16
  lr : Vec F S1024x1 .i32
  lc : Vec F S1x1024 .i32

def stepThr (P : Pt F) (s : Scr F) : Scr F :=
  { s with
    s0 := k0_pay20 P.i P.lr P.lc P.er P.ec s.s0
    s1 := k0_pay21 P.lr P.lc P.er P.ec s.s1 }

def stepAcc (P : Pt F) (s : Scr F) : Scr F :=
  let sim := k0_pay17 P.er P.ec
  let posM := k0_pay15 P.i P.lr P.lc
  let negM := k0_pay16 P.lr P.lc
  let nsel := k0_pay9 negM sim s.s0
  let s2' := k0_pay11 posM sim s.s1 s.s2
  let s3' := k0_pay12 posM sim s.s1 s.s3
  let s4' := k0_pay13 negM sim s.s0 s.s4
  let s5' := k0_pay6 sim nsel s.s5
  let s6' := k0_pay7 sim nsel s.s6
  { s with
    s2 := s2', s3 := s3', s4 := s4', s5 := s5', s6 := s6'
    o4 := k0_pay8 s3' s4' s2' s6' s5'
    o5 := s4' }

def resetThr (s : Scr F) : Scr F := { s with s0 := k0_pay18, s1 := k0_pay19 }

def resetAcc (s : Scr F) : Scr F := { s with s2 := k0_pay1, s3 := k0_pay2, s4 := k0_pay3, s5 := k0_pay4, s6 := k0_pay5 }

def Scr.any : Scr F := ⟨k0_pay1, k0_pay1, k0_pay1, k0_pay1, k0_pay1, k0_pay1, k0_pay1, k0_pay1, k0_pay1⟩

def stepAt (q : ℕ) (P : Pt F) (s : Scr F) : Scr F :=
  if q = 0 then stepThr P (resetThr s)
  else if q < 8 then stepThr P s
  else if q = 8 then stepAcc P (resetAcc s)
  else stepAcc P s

def scrAt (B : ℕ → Pt F) : ℕ → Scr F
  | 0 => stepAt 0 (B 0) Scr.any
  | n + 1 => stepAt ((n + 1) % 16) (B (n + 1)) (scrAt B n)

theorem scrAt_succ (B : ℕ → Pt F) (n : ℕ) : scrAt B (n + 1) = stepAt ((n + 1) % 16) (B (n + 1)) (scrAt B n) := rfl

def rowTile (E : Vec F S8192x512 .bf16) (a : ℕ) : Vec F S1024x512 .bf16 :=
  fun y => E (ix2 (⟨1024 * (a % 8) + (y 0).val, by have := idx2_lt0 y; omega⟩ : Fin 8192) (⟨(y 1).val, idx2_lt1 y⟩ : Fin 512))

def colTileOfColumn (L : Vec F S8192x1 .i32) (a : ℕ) : Vec F S1024x1 .i32 :=
  fun y => L (ix2 (⟨1024 * (a % 8) + (y 0).val, by have := idx2_lt0 y; omega⟩ : Fin 8192) (⟨0, by decide⟩ : Fin 1))

def rowTileOfRow (L : Vec F S1x8192 .i32) (a : ℕ) : Vec F S1x1024 .i32 :=
  fun y => L (ix2 (⟨0, by decide⟩ : Fin 1) (⟨1024 * (a % 8) + (y 1).val, by have := idx2_lt1 y; omega⟩ : Fin 8192))

def ptOf (coords : ℕ → grid0.Coords) (E : Vec F S8192x512 .bf16) (Lc : Vec F S8192x1 .i32) (Lr : Vec F S1x8192 .i32)
    (n : ℕ) : Pt F :=
  ⟨coords n, rowTile E (n / 16), rowTile E (n % 8), colTileOfColumn Lc (n / 16), rowTileOfRow Lr (n % 8)⟩

def coordsOf (n : ℕ) : grid0.Coords := grid0.coords ⟨n % 128, by rw [N_0_aux]; exact Nat.mod_lt _ (by decide)⟩
  where N_0_aux : grid0.N = 128 := by decide

end Cert.KernelIdeal.Tile

end
-- ==== Proof.TileFrame.lean ====
/- The body's five cases along a row tile's sixteen points, the state carried between points, and the body's obligation at every point. -/
import proofs.«180551_j55817394979145_1_alg».proof.Proof.TileRunC
import proofs.«180551_j55817394979145_1_alg».proof.Proof.TileRunD
import proofs.«180551_j55817394979145_1_alg».proof.Proof.TileRunE
import proofs.«180551_j55817394979145_1_alg».proof.Proof.TileSteps

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev VS0_0 : View sig .tc .vmem S1024x1 .f32 := (scM0_0).view
abbrev VS0_1 : View sig .tc .vmem S1024x1 .f32 := (scM0_1).view
abbrev VS0_2 : View sig .tc .vmem S1024x1 .f32 := (scM0_2).view
abbrev VS0_3 : View sig .tc .vmem S1024x1 .f32 := (scM0_3).view
abbrev VS0_4 : View sig .tc .vmem S1024x1 .f32 := (scM0_4).view
abbrev VS0_5 : View sig .tc .vmem S1024x1 .f32 := (scM0_5).view
abbrev VS0_6 : View sig .tc .vmem S1024x1 .f32 := (scM0_6).view

abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view

section Pieces

variable (c : Dev nD) (i : grid0.Coords)
  (arg3 : Memref sig .tc .vmem S1024x512 .bf16) (harg3 : arg3.IsWhole) (arg4 : Memref sig .tc .vmem S1024x512 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x1 .f32) (harg13 : arg13.IsWhole) (arg14 : Memref sig .tc .vmem S1024x1 .f32) (harg14 : arg14.IsWhole)
  (arg15 : Memref sig .tc .vmem S1024x1 .f32) (harg15 : arg15.IsWhole)

local notation "on[" f "]" => f c i arg3 harg3 arg4 harg4 arg5 harg5 arg6 harg6 arg7 harg7 arg8 harg8 arg9 harg9 arg10 harg10 arg11 harg11 arg12 harg12 arg13 harg13 arg14 harg14 arg15 harg15

section
variable (hc1 : cond0_1 i) (hc2 : cond0_2 i) (hc3 : ¬cond0_3 i) (hc4 : ¬cond0_4 i) (hc5 : ¬cond0_5 i) (x0 : Vec F S1024x512 .bf16) (x1 : Vec F S1024x512 .bf16) (x2 : Vec F S1024x1 .i32) (x3 : Vec F S1x1024 .i32)

def sout0_A_0 : Vec F S1024x1 .f32 :=
  VS0_0.read (Elt F) (VS0_0.writes (Elt F) VS0_0.junk (on[kernelRun0_A] hc1 hc2 hc3 hc4 hc5 x0 x1 x2 x3).1)
def sout0_A_1 : Vec F S1024x1 .f32 :=
  VS0_1.read (Elt F) (VS0_1.writes (Elt F) VS0_1.junk (on[kernelRun0_A] hc1 hc2 hc3 hc4 hc5 x0 x1 x2 x3).2.1)

end

section
variable (hc1 : ¬cond0_1 i) (hc2 : cond0_2 i) (hc3 : ¬cond0_3 i) (hc4 : ¬cond0_4 i) (hc5 : ¬cond0_5 i) (x0 : Vec F S1024x512 .bf16) (x1 : Vec F S1024x512 .bf16) (x2 : Vec F S1024x1 .i32) (x3 : Vec F S1x1024 .i32) (xs0 xs1 : Vec F S1024x1 .f32)

def sout0_B_0 : Vec F S1024x1 .f32 :=
  VS0_0.read (Elt F) (VS0_0.writes (Elt F) VS0_0.junk (on[kernelRun0_B] hc1 hc2 hc3 hc4 hc5 x0 x1 x2 x3 xs0 xs1).1)
def sout0_B_1 : Vec F S1024x1 .f32 :=
  VS0_1.read (Elt F) (VS0_1.writes (Elt F) VS0_1.junk (on[kernelRun0_B] hc1 hc2 hc3 hc4 hc5 x0 x1 x2 x3 xs0 xs1).2.1)

end

section
variable (hc1 : ¬cond0_1 i) (hc2 : ¬cond0_2 i) (hc3 : cond0_3 i) (hc4 : cond0_4 i) (hc5 : ¬cond0_5 i) (x0 : Vec F S1024x512 .bf16) (x1 : Vec F S1024x512 .bf16) (x2 : Vec F S1024x1 .i32) (x3 : Vec F S1x1024 .i32) (xs0 xs1 : Vec F S1024x1 .f32)

def sout0_C_2 : Vec F S1024x1 .f32 :=
  VS0_2.read (Elt F) (VS0_2.writes (Elt F) VS0_2.junk (on[kernelRun0_C] hc1 hc2 hc3 hc4 hc5 x0 x1 x2 x3 xs0 xs1).1)
def sout0_C_3 : Vec F S1024x1 .f32 :=
  VS0_3.read (Elt F) (VS0_3.writes (Elt F) VS0_3.junk (on[kernelRun0_C] hc1 hc2 hc3 hc4 hc5 x0 x1 x2 x3 xs0 xs1).2.1)
def sout0_C_4 : Vec F S1024x1 .f32 :=
  VS0_4.read (Elt F) (VS0_4.writes (Elt F) VS0_4.junk (on[kernelRun0_C] hc1 hc2 hc3 hc4 hc5 x0 x1 x2 x3 xs0 xs1).2.2.1)
def sout0_C_5 : Vec F S1024x1 .f32 :=
  VS0_5.read (Elt F) (VS0_5.writes (Elt F) VS0_5.junk (on[kernelRun0_C] hc1 hc2 hc3 hc4 hc5 x0 x1 x2 x3 xs0 xs1).2.2.2.1)
def sout0_C_6 : Vec F S1024x1 .f32 :=
  VS0_6.read (Elt F) (VS0_6.writes (Elt F) VS0_6.junk (on[kernelRun0_C] hc1 hc2 hc3 hc4 hc5 x0 x1 x2 x3 xs0 xs1).2.2.2.2.1)

end

section
variable (hc1 : ¬cond0_1 i) (hc2 : ¬cond0_2 i) (hc3 : ¬cond0_3 i) (hc4 : cond0_4 i) (hc5 : ¬cond0_5 i) (x0 : Vec F S1024x512 .bf16) (x1 : Vec F S1024x512 .bf16) (x2 : Vec F S1024x1 .i32) (x3 : Vec F S1x1024 .i32) (xs0 xs1 xs2 xs3 xs4 xs5 xs6 : Vec F S1024x1 .f32)

def sout0_D_2 : Vec F S1024x1 .f32 :=
  VS0_2.read (Elt F) (VS0_2.writes (Elt F) VS0_2.junk (on[kernelRun0_D] hc1 hc2 hc3 hc4 hc5 x0 x1 x2 x3 xs0 xs1 xs2 xs3 xs4 xs5 xs6).1)
def sout0_D_3 : Vec F S1024x1 .f32 :=
  VS0_3.read (Elt F) (VS0_3.writes (Elt F) VS0_3.junk (on[kernelRun0_D] hc1 hc2 hc3 hc4 hc5 x0 x1 x2 x3 xs0 xs1 xs2 xs3 xs4 xs5 xs6).2.1)
def sout0_D_4 : Vec F S1024x1 .f32 :=
  VS0_4.read (Elt F) (VS0_4.writes (Elt F) VS0_4.junk (on[kernelRun0_D] hc1 hc2 hc3 hc4 hc5 x0 x1 x2 x3 xs0 xs1 xs2 xs3 xs4 xs5 xs6).2.2.1)
def sout0_D_5 : Vec F S1024x1 .f32 :=
  VS0_5.read (Elt F) (VS0_5.writes (Elt F) VS0_5.junk (on[kernelRun0_D] hc1 hc2 hc3 hc4 hc5 x0 x1 x2 x3 xs0 xs1 xs2 xs3 xs4 xs5 xs6).2.2.2.1)
def sout0_D_6 : Vec F S1024x1 .f32 :=
  VS0_6.read (Elt F) (VS0_6.writes (Elt F) VS0_6.junk (on[kernelRun0_D] hc1 hc2 hc3 hc4 hc5 x0 x1 x2 x3 xs0 xs1 xs2 xs3 xs4 xs5 xs6).2.2.2.2.1)

end

section
variable (hc1 : ¬cond0_1 i) (hc2 : ¬cond0_2 i) (hc3 : ¬cond0_3 i) (hc4 : cond0_4 i) (hc5 : cond0_5 i) (x0 : Vec F S1024x512 .bf16) (x1 : Vec F S1024x512 .bf16) (x2 : Vec F S1024x1 .i32) (x3 : Vec F S1x1024 .i32) (xs0 xs1 xs2 xs3 xs4 xs5 xs6 : Vec F S1024x1 .f32)

def out0_E_4 : Vec F S1024x1 .f32 :=
  VO0_4.read (Elt F) (VO0_4.writes (Elt F) VO0_4.junk (on[kernelRun0_E] hc1 hc2 hc3 hc4 hc5 x0 x1 x2 x3 xs0 xs1 xs2 xs3 xs4 xs5 xs6).1)
def out0_E_5 : Vec F S1024x1 .f32 :=
  VO0_5.read (Elt F) (VO0_5.writes (Elt F) VO0_5.junk (on[kernelRun0_E] hc1 hc2 hc3 hc4 hc5 x0 x1 x2 x3 xs0 xs1 xs2 xs3 xs4 xs5 xs6).2.1)
def sout0_E_2 : Vec F S1024x1 .f32 :=
  VS0_2.read (Elt F) (VS0_2.writes (Elt F) VS0_2.junk (on[kernelRun0_E] hc1 hc2 hc3 hc4 hc5 x0 x1 x2 x3 xs0 xs1 xs2 xs3 xs4 xs5 xs6).2.2.1)
def sout0_E_3 : Vec F S1024x1 .f32 :=
  VS0_3.read (Elt F) (VS0_3.writes (Elt F) VS0_3.junk (on[kernelRun0_E] hc1 hc2 hc3 hc4 hc5 x0 x1 x2 x3 xs0 xs1 xs2 xs3 xs4 xs5 xs6).2.2.2.1)
def sout0_E_4 : Vec F S1024x1 .f32 :=
  VS0_4.read (Elt F) (VS0_4.writes (Elt F) VS0_4.junk (on[kernelRun0_E] hc1 hc2 hc3 hc4 hc5 x0 x1 x2 x3 xs0 xs1 xs2 xs3 xs4 xs5 xs6).2.2.2.2.1)
def sout0_E_5 : Vec F S1024x1 .f32 :=
  VS0_5.read (Elt F) (VS0_5.writes (Elt F) VS0_5.junk (on[kernelRun0_E] hc1 hc2 hc3 hc4 hc5 x0 x1 x2 x3 xs0 xs1 xs2 xs3 xs4 xs5 xs6).2.2.2.2.2.1)
def sout0_E_6 : Vec F S1024x1 .f32 :=
  VS0_6.read (Elt F) (VS0_6.writes (Elt F) VS0_6.junk (on[kernelRun0_E] hc1 hc2 hc3 hc4 hc5 x0 x1 x2 x3 xs0 xs1 xs2 xs3 xs4 xs5 xs6).2.2.2.2.2.2.1)

end

end Pieces

local notation "at[" f ", " c ", " t "]" => f c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)

theorem conds_A (t : Fin cfg0.N) (h : t.val % 16 = 0) :
    cond0_1 (grid0.coords t) ∧ cond0_2 (grid0.coords t) ∧ ¬cond0_3 (grid0.coords t) ∧ ¬cond0_4 (grid0.coords t) ∧ ¬cond0_5 (grid0.coords t) :=
  ⟨(hcond0_1 t).mpr h, (hcond0_2 t).mpr (by omega), fun h' => by have := (hcond0_3 t).mp h'; omega,
    fun h' => by have := (hcond0_4 t).mp h'; omega, fun h' => by have := (hcond0_5 t).mp h'; omega⟩
theorem conds_B (t : Fin cfg0.N) (h0 : ¬t.val % 16 = 0) (h1 : t.val % 16 < 8) :
    ¬cond0_1 (grid0.coords t) ∧ cond0_2 (grid0.coords t) ∧ ¬cond0_3 (grid0.coords t) ∧ ¬cond0_4 (grid0.coords t) ∧ ¬cond0_5 (grid0.coords t) :=
  ⟨fun h' => h0 ((hcond0_1 t).mp h'), (hcond0_2 t).mpr h1, fun h' => by have := (hcond0_3 t).mp h'; omega,
    fun h' => by have := (hcond0_4 t).mp h'; omega, fun h' => by have := (hcond0_5 t).mp h'; omega⟩
theorem conds_C (t : Fin cfg0.N) (h : t.val % 16 = 8) :
    ¬cond0_1 (grid0.coords t) ∧ ¬cond0_2 (grid0.coords t) ∧ cond0_3 (grid0.coords t) ∧ cond0_4 (grid0.coords t) ∧ ¬cond0_5 (grid0.coords t) :=
  ⟨fun h' => by have := (hcond0_1 t).mp h'; omega, fun h' => by have := (hcond0_2 t).mp h'; omega, (hcond0_3 t).mpr h,
    (hcond0_4 t).mpr (by omega), fun h' => by have := (hcond0_5 t).mp h'; omega⟩
theorem conds_D (t : Fin cfg0.N) (h : 9 ≤ t.val % 16 ∧ t.val % 16 ≤ 14) :
    ¬cond0_1 (grid0.coords t) ∧ ¬cond0_2 (grid0.coords t) ∧ ¬cond0_3 (grid0.coords t) ∧ cond0_4 (grid0.coords t) ∧ ¬cond0_5 (grid0.coords t) :=
  ⟨fun h' => by have := (hcond0_1 t).mp h'; omega, fun h' => by have := (hcond0_2 t).mp h'; omega,
    fun h' => by have := (hcond0_3 t).mp h'; omega, (hcond0_4 t).mpr (by omega), fun h' => by have := (hcond0_5 t).mp h'; omega⟩
theorem conds_E (t : Fin cfg0.N) (h : t.val % 16 = 15) :
    ¬cond0_1 (grid0.coords t) ∧ ¬cond0_2 (grid0.coords t) ∧ ¬cond0_3 (grid0.coords t) ∧ cond0_4 (grid0.coords t) ∧ cond0_5 (grid0.coords t) :=
  ⟨fun h' => by have := (hcond0_1 t).mp h'; omega, fun h' => by have := (hcond0_2 t).mp h'; omega,
    fun h' => by have := (hcond0_3 t).mp h'; omega, (hcond0_4 t).mpr (by omega), (hcond0_5 t).mpr h⟩

def caseA (c : Dev nD) (t : Fin cfg0.N) (h : t.val % 16 = 0) (s : Scr F) : Scr F :=
  { s with
    s0 := at[sout0_A_0, c, t] (conds_A t h).1 (conds_A t h).2.1 (conds_A t h).2.2.1 (conds_A t h).2.2.2.1 (conds_A t h).2.2.2.2
            (iblk m c 0 t) (iblk m c 1 t) (iblk m c 2 t) (iblk m c 3 t)
    s1 := at[sout0_A_1, c, t] (conds_A t h).1 (conds_A t h).2.1 (conds_A t h).2.2.1 (conds_A t h).2.2.2.1 (conds_A t h).2.2.2.2
            (iblk m c 0 t) (iblk m c 1 t) (iblk m c 2 t) (iblk m c 3 t) }

def caseB (c : Dev nD) (t : Fin cfg0.N) (h0 : ¬t.val % 16 = 0) (h1 : t.val % 16 < 8) (s : Scr F) : Scr F :=
  { s with
    s0 := at[sout0_B_0, c, t] (conds_B t h0 h1).1 (conds_B t h0 h1).2.1 (conds_B t h0 h1).2.2.1 (conds_B t h0 h1).2.2.2.1 (conds_B t h0 h1).2.2.2.2
            (iblk m c 0 t) (iblk m c 1 t) (iblk m c 2 t) (iblk m c 3 t) s.s0 s.s1
    s1 := at[sout0_B_1, c, t] (conds_B t h0 h1).1 (conds_B t h0 h1).2.1 (conds_B t h0 h1).2.2.1 (conds_B t h0 h1).2.2.2.1 (conds_B t h0 h1).2.2.2.2
            (iblk m c 0 t) (iblk m c 1 t) (iblk m c 2 t) (iblk m c 3 t) s.s0 s.s1 }

def caseC (c : Dev nD) (t : Fin cfg0.N) (h : t.val % 16 = 8) (s : Scr F) : Scr F :=
  { s with
    s2 := at[sout0_C_2, c, t] (conds_C t h).1 (conds_C t h).2.1 (conds_C t h).2.2.1 (conds_C t h).2.2.2.1 (conds_C t h).2.2.2.2
            (iblk m c 0 t) (iblk m c 1 t) (iblk m c 2 t) (iblk m c 3 t) s.s0 s.s1
    s3 := at[sout0_C_3, c, t] (conds_C t h).1 (conds_C t h).2.1 (conds_C t h).2.2.1 (conds_C t h).2.2.2.1 (conds_C t h).2.2.2.2
            (iblk m c 0 t) (iblk m c 1 t) (iblk m c 2 t) (iblk m c 3 t) s.s0 s.s1
    s4 := at[sout0_C_4, c, t] (conds_C t h).1 (conds_C t h).2.1 (conds_C t h).2.2.1 (conds_C t h).2.2.2.1 (conds_C t h).2.2.2.2
            (iblk m c 0 t) (iblk m c 1 t) (iblk m c 2 t) (iblk m c 3 t) s.s0 s.s1
    s5 := at[sout0_C_5, c, t] (conds_C t h).1 (conds_C t h).2.1 (conds_C t h).2.2.1 (conds_C t h).2.2.2.1 (conds_C t h).2.2.2.2
            (iblk m c 0 t) (iblk m c 1 t) (iblk m c 2 t) (iblk m c 3 t) s.s0 s.s1
    s6 := at[sout0_C_6, c, t] (conds_C t h).1 (conds_C t h).2.1 (conds_C t h).2.2.1 (conds_C t h).2.2.2.1 (conds_C t h).2.2.2.2
            (iblk m c 0 t) (iblk m c 1 t) (iblk m c 2 t) (iblk m c 3 t) s.s0 s.s1 }

def caseD (c : Dev nD) (t : Fin cfg0.N) (h : 9 ≤ t.val % 16 ∧ t.val % 16 ≤ 14) (s : Scr F) : Scr F :=
  { s with
    s2 := at[sout0_D_2, c, t] (conds_D t h).1 (conds_D t h).2.1 (conds_D t h).2.2.1 (conds_D t h).2.2.2.1 (conds_D t h).2.2.2.2
            (iblk m c 0 t) (iblk m c 1 t) (iblk m c 2 t) (iblk m c 3 t) s.s0 s.s1 s.s2 s.s3 s.s4 s.s5 s.s6
    s3 := at[sout0_D_3, c, t] (conds_D t h).1 (conds_D t h).2.1 (conds_D t h).2.2.1 (conds_D t h).2.2.2.1 (conds_D t h).2.2.2.2
            (iblk m c 0 t) (iblk m c 1 t) (iblk m c 2 t) (iblk m c 3 t) s.s0 s.s1 s.s2 s.s3 s.s4 s.s5 s.s6
    s4 := at[sout0_D_4, c, t] (conds_D t h).1 (conds_D t h).2.1 (conds_D t h).2.2.1 (conds_D t h).2.2.2.1 (conds_D t h).2.2.2.2
            (iblk m c 0 t) (iblk m c 1 t) (iblk m c 2 t) (iblk m c 3 t) s.s0 s.s1 s.s2 s.s3 s.s4 s.s5 s.s6
    s5 := at[sout0_D_5, c, t] (conds_D t h).1 (conds_D t h).2.1 (conds_D t h).2.2.1 (conds_D t h).2.2.2.1 (conds_D t h).2.2.2.2
            (iblk m c 0 t) (iblk m c 1 t) (iblk m c 2 t) (iblk m c 3 t) s.s0 s.s1 s.s2 s.s3 s.s4 s.s5 s.s6
    s6 := at[sout0_D_6, c, t] (conds_D t h).1 (conds_D t h).2.1 (conds_D t h).2.2.1 (conds_D t h).2.2.2.1 (conds_D t h).2.2.2.2
            (iblk m c 0 t) (iblk m c 1 t) (iblk m c 2 t) (iblk m c 3 t) s.s0 s.s1 s.s2 s.s3 s.s4 s.s5 s.s6 }

def caseE (c : Dev nD) (t : Fin cfg0.N) (h : t.val % 16 = 15) (s : Scr F) : Scr F :=
  { s with
    o4 := at[out0_E_4, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    o5 := at[out0_E_5, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    s2 := at[sout0_E_2, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    s3 := at[sout0_E_3, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    s4 := at[sout0_E_4, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    s5 := at[sout0_E_5, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6
    s6 := at[sout0_E_6, c, t] (conds_E t h).1 (conds_E t h).2.1 (conds_E t h).2.2.1 (conds_E t h).2.2.2.1 (conds_E t h).2.2.2.2
            (iblk m c 0 t) (iblk m c 1 t) (iblk m c 2 t) (iblk m c 3 t) s.s0 s.s1 s.s2 s.s3 s.s4 s.s5 s.s6 }

def stateStep (c : Dev nD) (n : ℕ) (hn : n < cfg0.N) (s : Scr F) : Scr F :=
  if h0 : n % 16 = 0 then caseA m c ⟨n, hn⟩ h0 s
  else if h1 : n % 16 < 8 then caseB m c ⟨n, hn⟩ h0 h1 s
  else if h2 : n % 16 = 8 then caseC m c ⟨n, hn⟩ h2 s
  else if h3 : n % 16 = 15 then caseE m c ⟨n, hn⟩ h3 s
  else caseD m c ⟨n, hn⟩ (show 9 ≤ n % 16 ∧ n % 16 ≤ 14 by omega) s

def outsAt0 (c : Dev nD) : (n : ℕ) → n < cfg0.N → Scr F
  | 0, hn => stateStep m c 0 hn Scr.any
  | n + 1, hn => stateStep m c (n + 1) hn (outsAt0 c n (Nat.lt_of_succ_lt hn))

def prevAt0 (c : Dev nD) : (n : ℕ) → n < cfg0.N → Scr F
  | 0, _ => Scr.any
  | n + 1, hn => outsAt0 m c n (Nat.lt_of_succ_lt hn)

theorem outsAt0_step (c : Dev nD) (n : ℕ) (hn : n < cfg0.N) :
    outsAt0 m c n hn = stateStep m c n hn (prevAt0 m c n hn) := by
  cases n <;> rfl

theorem prevAt0_pos (c : Dev nD) (n : ℕ) (hn : n < cfg0.N) (hz : n ≠ 0) :
    prevAt0 m c n hn = outsAt0 m c (n - 1) (Nat.lt_of_le_of_lt (Nat.sub_le _ _) hn) := by
  cases n with
  | zero => exact absurd rfl hz
  | succ n => rfl

theorem outsAt0_A (c : Dev nD) (t : Fin cfg0.N) (h : t.val % 16 = 0) :
    outsAt0 m c t.val t.isLt = caseA m c t h (prevAt0 m c t.val t.isLt) := by
  rw [outsAt0_step]; unfold stateStep; rw [dif_pos h]
theorem outsAt0_B (c : Dev nD) (t : Fin cfg0.N) (h0 : ¬t.val % 16 = 0) (h1 : t.val % 16 < 8) :
    outsAt0 m c t.val t.isLt = caseB m c t h0 h1 (prevAt0 m c t.val t.isLt) := by
  rw [outsAt0_step]; unfold stateStep; rw [dif_neg h0, dif_pos h1]
theorem outsAt0_C (c : Dev nD) (t : Fin cfg0.N) (h : t.val % 16 = 8) :
    outsAt0 m c t.val t.isLt = caseC m c t h (prevAt0 m c t.val t.isLt) := by
  rw [outsAt0_step]; unfold stateStep
  rw [dif_neg (by omega : ¬t.val % 16 = 0), dif_neg (by omega : ¬t.val % 16 < 8), dif_pos h]
theorem outsAt0_D (c : Dev nD) (t : Fin cfg0.N) (h : 9 ≤ t.val % 16 ∧ t.val % 16 ≤ 14) :
    outsAt0 m c t.val t.isLt = caseD m c t h (prevAt0 m c t.val t.isLt) := by
  rw [outsAt0_step]; unfold stateStep
  rw [dif_neg (by omega : ¬t.val % 16 = 0), dif_neg (by omega : ¬t.val % 16 < 8), dif_neg (by omega : ¬t.val % 16 = 8),
    dif_neg (by omega : ¬t.val % 16 = 15)]
theorem outsAt0_E (c : Dev nD) (t : Fin cfg0.N) (h : t.val % 16 = 15) :
    outsAt0 m c t.val t.isLt = caseE m c t h (prevAt0 m c t.val t.isLt) := by
  rw [outsAt0_step]; unfold stateStep
  rw [dif_neg (by omega : ¬t.val % 16 = 0), dif_neg (by omega : ¬t.val % 16 < 8), dif_neg (by omega : ¬t.val % 16 = 8), dif_pos h]

def accsAt (c : Dev nD) (q : ℕ) (s : Scr F) : sProp 𝕄 :=
  if 8 ≤ q then
    iprop(owns (c : Thread nD τ) scM0_2 fullShare s.s2 ∗ owns (c : Thread nD τ) scM0_3 fullShare s.s3
      ∗ owns (c : Thread nD τ) scM0_4 fullShare s.s4 ∗ owns (c : Thread nD τ) scM0_5 fullShare s.s5
      ∗ owns (c : Thread nD τ) scM0_6 fullShare s.s6)
  else
    iprop((∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)
      ∗ (∃ d, owns (c : Thread nD τ) scM0_6 fullShare d))

theorem accsAt_named (c : Dev nD) (q : ℕ) (s : Scr F) (h : 8 ≤ q) :
    accsAt c q s = iprop(owns (c : Thread nD τ) scM0_2 fullShare s.s2 ∗ owns (c : Thread nD τ) scM0_3 fullShare s.s3
      ∗ owns (c : Thread nD τ) scM0_4 fullShare s.s4 ∗ owns (c : Thread nD τ) scM0_5 fullShare s.s5
      ∗ owns (c : Thread nD τ) scM0_6 fullShare s.s6) := by
  unfold accsAt; rw [if_pos h]

theorem accsAt_unnamed (c : Dev nD) (q : ℕ) (s : Scr F) (h : ¬8 ≤ q) :
    accsAt c q s = iprop((∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)
      ∗ (∃ d, owns (c : Thread nD τ) scM0_6 fullShare d)) := by
  unfold accsAt; rw [if_neg h]

theorem accsAt_forget (c : Dev nD) (q : ℕ) (s : Scr F) :
    accsAt c q s ⊢ (iprop((∃ d, owns (c : Thread nD τ) scM0_2 fullShare d) ∗ (∃ d, owns (c : Thread nD τ) scM0_3 fullShare d)
      ∗ (∃ d, owns (c : Thread nD τ) scM0_4 fullShare d) ∗ (∃ d, owns (c : Thread nD τ) scM0_5 fullShare d)
      ∗ (∃ d, owns (c : Thread nD τ) scM0_6 fullShare d)) : sProp 𝕄) := by
  unfold accsAt
  split
  · iintro ⟨H2, H3, H4, H5, H6⟩
    isplitl [H2]; · iexists _; iexact H2
    isplitl [H3]; · iexists _; iexact H3
    isplitl [H4]; · iexists _; iexact H4
    isplitl [H5]; · iexists _; iexact H5
    iexists _; iexact H6
  · exact Entails.refl _

def PhiS (c : Dev nD) : (n : ℕ) → n ≤ cfg0.N → sProp 𝕄
  | 0, _ => Pipeline.ΦA spec0 c
  | n + 1, hn => iprop(iprop(owns (c : Thread nD τ) scM0_0 fullShare (outsAt0 m c n hn).s0
      ∗ owns (c : Thread nD τ) scM0_1 fullShare (outsAt0 m c n hn).s1
      ∗ accsAt c (n % 16) (outsAt0 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).s0
      ∗ owns (c : Thread nD τ) scM0_1 fullShare (outsAt0 m c n hn).s1
      ∗ accsAt c (n % 16) (outsAt0 m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).s0
      ∗ owns (c : Thread nD τ) scM0_1 fullShare (outsAt0 m c (n - 1) (by omega)).s1
      ∗ accsAt c ((n - 1) % 16) (outsAt0 m c (n - 1) (by omega))) ∗ (∃ r, prngReg c r)) := by
  cases n with
  | zero => exact absurd rfl hz
  | succ n => rfl

theorem PhiS_forget (c : Dev nD) (n : ℕ) (h : n ≤ cfg0.N) : PhiS m c n h ⊢ Pipeline.ΦA spec0 c := by
  cases n with
  | zero => exact Entails.refl _
  | succ n =>
    rw [PhiS_succ, PhiA0_eq]
    iintro ⟨⟨H0, H1, Hacc⟩, Hg⟩
    ihave ⟨H2, H3, H4, H5, H6⟩ := (accsAt_forget c _ _) $$ Hacc
    isplitr [Hg]
    · isplitl [H0]; · iexists _; iexact H0
      isplitl [H1]; · iexists _; iexact H1
      isplitl [H2]; · iexact H2
      isplitl [H3]; · iexact H3
      isplitl [H4]; · iexact H4
      isplitl [H5]; · iexact H5
      iexact H6
    iexact Hg

theorem PhiS_scratch (c : Dev nD) (n : ℕ) (h : n ≤ cfg0.N) :
    PhiS m c n h ⊢ (iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d)
          ∗ (∃ d, owns (c : Thread nD τ) scM0_6 fullShare d)) ∗ (∃ r, prngReg c r)) : sProp 𝕄) := by
  rw [← PhiA0_eq]; exact PhiS_forget m c n h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem owns_of_writes (c : Dev nD) (M : Memref sig .tc .vmem S1024x1 .f32) (V' : View sig .tc .vmem S1024x1 .f32)
    (L : List (View.Piece (Elt F) S1024x1 .f32)) (hcov : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (V'.read (Elt F) (V'.writes (Elt F) V'.junk L)) := by
  iintro ⟨%f, H⟩
  unfold owns; iexists _; isplitr
  swap; · iexact H
  ipureintro; exact View.read_writes_of_cover _ _ _ _ _ hcov

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rewrite [show (dats m 0 c).owesAt () t.succ = (dats m 0 c).owesAt () t.castSucc from rfl]
  rewrite [show (dats m 0 c).Φ t.succ = PhiS m c (t.val + 1) t.isLt from rfl, PhiS_succ, PhiS_castSucc]
  rewrite [show (dats m 0 c).leavesExact 0 t = owns (c : Thread nD τ) (ms0_0 t) fullShare ((dats m 0 c).after 0 t) from by
    unfold Dat.leavesExact; rw [liveAt0_0 t], after0_0]
  rewrite [show (dats m 0 c).leavesExact 1 t = owns (c : Thread nD τ) (ms0_1 t) fullShare ((dats m 0 c).after 1 t) from by
    unfold Dat.leavesExact; rw [liveAt0_1 t], after0_1]
  rewrite [show (dats m 0 c).leavesExact 2 t = owns (c : Thread nD τ) (ms0_2 t) fullShare ((dats m 0 c).after 2 t) from by
    unfold Dat.leavesExact; rw [liveAt0_2 t], after0_2]
  rewrite [show (dats m 0 c).leavesExact 3 t = owns (c : Thread nD τ) (ms0_3 t) fullShare ((dats m 0 c).after 3 t) from by
    unfold Dat.leavesExact; rw [liveAt0_3 t], after0_3]
  have hN : t.val < 128 := lt_of_lt_of_eq t.isLt (show cfg0.N = 128 from N_0)
  by_cases h0 : t.val % 16 = 0
  ·
    obtain ⟨hc1, hc2, hc3, hc4, hc5⟩ := conds_A t h0
    rewrite [Dat.leavesExact_idle (dats m 0 c) 4 t (idleAt0_4 t hc5) (noFlush0_4 t hc5),
      Dat.leavesExact_idle (dats m 0 c) 5 t (idleAt0_5 t hc5) (noFlush0_5 t hc5)]
    rewrite [accsAt_unnamed c (t.val % 16) _ (by omega), outsAt0_A m c t h0]
    unfold caseA sout0_A_0 sout0_A_1; dsimp only
    iintro ⟨HΦ, Ho, ⟨%d0, H0⟩, ⟨%d1, H1⟩, ⟨%d2, H2⟩, ⟨%d3, H3⟩, ⟨%d4, H4⟩, ⟨%d5, H5⟩⟩
    ihave ⟨⟨HS0, HS1, HS2, HS3, HS4, HS5, HS6⟩, Hg⟩ := (PhiS_scratch m c _ _) $$ HΦ
    iapply ((at[kernelRun0_A, c, t] hc1 hc2 hc3 hc4 hc5 (iblk m c 0 t) (iblk m c 1 t) (iblk m c 2 t) (iblk m c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, HS0, HS1, HS2, HS3, HS4, HS5, HS6⟩
    isplitr [Ho H0 H1 H2 H3 H4 H5]
    · isplitr [Hg]
      · isplitl [HS0]
        · ihave HS0' := (owns_of_writes c scM0_0 VS0_0 _ (at[cover0_A_0, c, t] hc1 hc2 hc3 hc4 hc5 (iblk m c 0 t) (iblk m c 1 t) (iblk m c 2 t) (iblk m c 3 t))) $$ HS0
          iexact HS0'
        isplitl [HS1]
        · ihave HS1' := (owns_of_writes c scM0_1 VS0_1 _ (at[cover0_A_1, c, t] hc1 hc2 hc3 hc4 hc5 (iblk m c 0 t) (iblk m c 1 t) (iblk m c 2 t) (iblk m c 3 t))) $$ HS1
          iexact HS1'
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun e => h0 (by rw [e])
    by_cases h1 : t.val % 16 < 8
    ·

      obtain ⟨hc1, hc2, hc3, hc4, hc5⟩ := conds_B t h0 h1
      rewrite [Dat.leavesExact_idle (dats m 0 c) 4 t (idleAt0_4 t hc5) (noFlush0_4 t hc5),
        Dat.leavesExact_idle (dats m 0 c) 5 t (idleAt0_5 t hc5) (noFlush0_5 t hc5)]
      rewrite [accsAt_unnamed c (t.val % 16) _ (by omega), outsAt0_B m c t h0 h1, prevAt0_pos m c _ _ hz]
      rewrite [PhiS_pos m c _ _ hz, accsAt_unnamed c ((t.val - 1) % 16) _ (by omega)]
      unfold caseB sout0_B_0 sout0_B_1; dsimp only
      generalize outsAt0 m c (t.val - 1) _ = sp
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
      iapply ((at[kernelRun0_B, c, t] hc1 hc2 hc3 hc4 hc5 (iblk m c 0 t) (iblk m c 1 t) (iblk m c 2 t) (iblk m c 3 t) sp.s0 sp.s1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, HS0, HS1, HS2, HS3, HS4, HS5, HS6⟩
      isplitr [Ho H0 H1 H2 H3 H4 H5]
      · isplitr [Hg]
        · isplitl [HS0]
          · ihave HS0' := (owns_of_writes c scM0_0 VS0_0 _ (at[cover0_B_0, c, t] hc1 hc2 hc3 hc4 hc5 (iblk m c 0 t) (iblk m c 1 t) (iblk m c 2 t) (iblk m c 3 t) sp.s0 sp.s1)) $$ HS0
            iexact HS0'
          isplitl [HS1]
          · ihave HS1' := (owns_of_writes c scM0_1 VS0_1 _ (at[cover0_B_1, c, t] hc1 hc2 hc3 hc4 hc5 (iblk m c 0 t) (iblk m c 1 t) (iblk m c 2 t) (iblk m c 3 t) sp.s0 sp.s1)) $$ HS1
            iexact HS1'
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · by_cases h2 : t.val % 16 = 8
      ·

        obtain ⟨hc1, hc2, hc3, hc4, hc5⟩ := conds_C t h2
        rewrite [Dat.leavesExact_idle (dats m 0 c) 4 t (idleAt0_4 t hc5) (noFlush0_4 t hc5),
          Dat.leavesExact_idle (dats m 0 c) 5 t (idleAt0_5 t hc5) (noFlush0_5 t hc5)]
        rewrite [accsAt_named c (t.val % 16) _ (by omega), outsAt0_C m c t h2, prevAt0_pos m c _ _ hz]
        rewrite [PhiS_pos m c _ _ hz, accsAt_unnamed c ((t.val - 1) % 16) _ (by omega)]
        unfold caseC sout0_C_2 sout0_C_3 sout0_C_4 sout0_C_5 sout0_C_6; dsimp only
        generalize outsAt0 m c (t.val - 1) _ = sp
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((at[kernelRun0_C, c, t] hc1 hc2 hc3 hc4 hc5 (iblk m c 0 t) (iblk m c 1 t) (iblk m c 2 t) (iblk m c 3 t) sp.s0 sp.s1).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, HS0, HS1, HS2, HS3, HS4, HS5, HS6⟩
        isplitr [Ho H0 H1 H2 H3 H4 H5]
        · isplitr [Hg]
          · isplitl [HS0]; · iexact HS0
            isplitl [HS1]; · iexact HS1
            isplitl [HS2]
            · ihave HS2' := (owns_of_writes c scM0_2 VS0_2 _ (at[cover0_C_2, c, t] hc1 hc2 hc3 hc4 hc5 (iblk m c 0 t) (iblk m c 1 t) (iblk m c 2 t) (iblk m c 3 t) sp.s0 sp.s1)) $$ HS2
              iexact HS2'
            isplitl [HS3]
            · ihave HS3' := (owns_of_writes c scM0_3 VS0_3 _ (at[cover0_C_3, c, t] hc1 hc2 hc3 hc4 hc5 (iblk m c 0 t) (iblk m c 1 t) (iblk m c 2 t) (iblk m c 3 t) sp.s0 sp.s1)) $$ HS3
              iexact HS3'
            isplitl [HS4]
            · ihave HS4' := (owns_of_writes c scM0_4 VS0_4 _ (at[cover0_C_4, c, t] hc1 hc2 hc3 hc4 hc5 (iblk m c 0 t) (iblk m c 1 t) (iblk m c 2 t) (iblk m c 3 t) sp.s0 sp.s1)) $$ HS4
              iexact HS4'
            isplitl [HS5]
            · ihave HS5' := (owns_of_writes c scM0_5 VS0_5 _ (at[cover0_C_5, c, t] hc1 hc2 hc3 hc4 hc5 (iblk m c 0 t) (iblk m c 1 t) (iblk m c 2 t) (iblk m c 3 t) sp.s0 sp.s1)) $$ HS5
              iexact HS5'
            ihave HS6' := (owns_of_writes c scM0_6 VS0_6 _ (at[cover0_C_6, c, t] hc1 hc2 hc3 hc4 hc5 (iblk m c 0 t) (iblk m c 1 t) (iblk m c 2 t) (iblk m c 3 t) sp.s0 sp.s1)) $$ HS6
            iexact HS6'
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · by_cases h3 : t.val % 16 = 15
        ·

          obtain ⟨hc1, hc2, hc3, hc4, hc5⟩ := conds_E t h3
          rewrite [show (dats m 0 c).leavesExact 4 t = owns (c : Thread nD τ) (ms0_4 t) fullShare ((dats m 0 c).after 4 t) from by
            unfold Dat.leavesExact; rw [liveAt0_4 t hc5], after0_4]
          rewrite [show (dats m 0 c).leavesExact 5 t = owns (c : Thread nD τ) (ms0_5 t) fullShare ((dats m 0 c).after 5 t) from by
            unfold Dat.leavesExact; rw [liveAt0_5 t hc5], after0_5]
          rewrite [accsAt_named c (t.val % 16) _ (by omega), outsAt0_E m c t h3, prevAt0_pos m c _ _ hz]
          rewrite [PhiS_pos m c _ _ hz, accsAt_named c ((t.val - 1) % 16) _ (by omega)]
          unfold caseE out0_E_4 out0_E_5 sout0_E_2 sout0_E_3 sout0_E_4 sout0_E_5 sout0_E_6; dsimp only
          generalize outsAt0 m c (t.val - 1) _ = sp
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
          iapply ((at[kernelRun0_E, c, t] hc1 hc2 hc3 hc4 hc5 (iblk m c 0 t) (iblk m c 1 t) (iblk m c 2 t) (iblk m c 3 t) sp.s0 sp.s1 sp.s2 sp.s3 sp.s4 sp.s5 sp.s6).2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, HS0, HS1, HS2, HS3, HS4, HS5, HS6⟩
          isplitr [Ho H0 H1 H2 H3 H4 H5]
          · isplitr [Hg]
            · isplitl [HS0]; · iexact HS0
              isplitl [HS1]; · iexact HS1
              isplitl [HS2]
              · ihave HS2' := (owns_of_writes c scM0_2 VS0_2 _ (at[cover0_E_2, c, t] hc1 hc2 hc3 hc4 hc5 (iblk m c 0 t) (iblk m c 1 t) (iblk m c 2 t) (iblk m c 3 t) sp.s0 sp.s1 sp.s2 sp.s3 sp.s4 sp.s5 sp.s6)) $$ HS2
                iexact HS2'
              isplitl [HS3]
              · ihave HS3' := (owns_of_writes c scM0_3 VS0_3 _ (at[cover0_E_3, c, t] hc1 hc2 hc3 hc4 hc5 (iblk m c 0 t) (iblk m c 1 t) (iblk m c 2 t) (iblk m c 3 t) sp.s0 sp.s1 sp.s2 sp.s3 sp.s4 sp.s5 sp.s6)) $$ HS3
                iexact HS3'
              isplitl [HS4]
              · ihave HS4' := (owns_of_writes c scM0_4 VS0_4 _ (at[cover0_E_4, c, t] hc1 hc2 hc3 hc4 hc5 (iblk m c 0 t) (iblk m c 1 t) (iblk m c 2 t) (iblk m c 3 t) sp.s0 sp.s1 sp.s2 sp.s3 sp.s4 sp.s5 sp.s6)) $$ HS4
                iexact HS4'
              isplitl [HS5]
              · ihave HS5' := (owns_of_writes c scM0_5 VS0_5 _ (at[cover0_E_5, c, t] hc1 hc2 hc3 hc4 hc5 (iblk m c 0 t) (iblk m c 1 t) (iblk m c 2 t) (iblk m c 3 t) sp.s0 sp.s1 sp.s2 sp.s3 sp.s4 sp.s5 sp.s6)) $$ HS5
                iexact HS5'
              ihave HS6' := (owns_of_writes c scM0_6 VS0_6 _ (at[cover0_E_6, c, t] hc1 hc2 hc3 hc4 hc5 (iblk m c 0 t) (iblk m c 1 t) (iblk m c 2 t) (iblk m c 3 t) sp.s0 sp.s1 sp.s2 sp.s3 sp.s4 sp.s5 sp.s6)) $$ HS6
              iexact HS6'
            iexact Hg
          isplitl [Ho]; · iexact Ho
          isplitl [H0]; · iexact H0
          isplitl [H1]; · iexact H1
          isplitl [H2]; · iexact H2
          isplitl [H3]; · iexact H3
          isplitl [H4]
          · ihave H4' := (owns_of_writes c (ms0_4 t) VO0_4 _ (at[cover0_E_out4, c, t] hc1 hc2 hc3 hc4 hc5 (iblk m c 0 t) (iblk m c 1 t) (iblk m c 2 t) (iblk m c 3 t) sp.s0 sp.s1 sp.s2 sp.s3 sp.s4 sp.s5 sp.s6)) $$ H4
            iexact H4'
          ihave H5' := (owns_of_writes c (ms0_5 t) VO0_5 _ (at[cover0_E_out5, c, t] hc1 hc2 hc3 hc4 hc5 (iblk m c 0 t) (iblk m c 1 t) (iblk m c 2 t) (iblk m c 3 t) sp.s0 sp.s1 sp.s2 sp.s3 sp.s4 sp.s5 sp.s6)) $$ H5
          iexact H5'
        ·
          have hD : 9 ≤ t.val % 16 ∧ t.val % 16 ≤ 14 := ⟨by omega, by omega⟩
          obtain ⟨hc1, hc2, hc3, hc4, hc5⟩ := conds_D t hD
          rewrite [Dat.leavesExact_idle (dats m 0 c) 4 t (idleAt0_4 t hc5) (noFlush0_4 t hc5),
            Dat.leavesExact_idle (dats m 0 c) 5 t (idleAt0_5 t hc5) (noFlush0_5 t hc5)]
          rewrite [accsAt_named c (t.val % 16) _ (by omega), outsAt0_D m c t hD, prevAt0_pos m c _ _ hz]
          rewrite [PhiS_pos m c _ _ hz, accsAt_named c ((t.val - 1) % 16) _ (by omega)]
          unfold caseD sout0_D_2 sout0_D_3 sout0_D_4 sout0_D_5 sout0_D_6; dsimp only
          generalize outsAt0 m c (t.val - 1) _ = sp
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
          iapply ((at[kernelRun0_D, c, t] hc1 hc2 hc3 hc4 hc5 (iblk m c 0 t) (iblk m c 1 t) (iblk m c 2 t) (iblk m c 3 t) sp.s0 sp.s1 sp.s2 sp.s3 sp.s4 sp.s5 sp.s6).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, HS0, HS1, HS2, HS3, HS4, HS5, HS6⟩
          isplitr [Ho H0 H1 H2 H3 H4 H5]
          · isplitr [Hg]
            · isplitl [HS0]; · iexact HS0
              isplitl [HS1]; · iexact HS1
              isplitl [HS2]
              · ihave HS2' := (owns_of_writes c scM0_2 VS0_2 _ (at[cover0_D_2, c, t] hc1 hc2 hc3 hc4 hc5 (iblk m c 0 t) (iblk m c 1 t) (iblk m c 2 t) (iblk m c 3 t) sp.s0 sp.s1 sp.s2 sp.s3 sp.s4 sp.s5 sp.s6)) $$ HS2
                iexact HS2'
              isplitl [HS3]
              · ihave HS3' := (owns_of_writes c scM0_3 VS0_3 _ (at[cover0_D_3, c, t] hc1 hc2 hc3 hc4 hc5 (iblk m c 0 t) (iblk m c 1 t) (iblk m c 2 t) (iblk m c 3 t) sp.s0 sp.s1 sp.s2 sp.s3 sp.s4 sp.s5 sp.s6)) $$ HS3
                iexact HS3'
              isplitl [HS4]
              · ihave HS4' := (owns_of_writes c scM0_4 VS0_4 _ (at[cover0_D_4, c, t] hc1 hc2 hc3 hc4 hc5 (iblk m c 0 t) (iblk m c 1 t) (iblk m c 2 t) (iblk m c 3 t) sp.s0 sp.s1 sp.s2 sp.s3 sp.s4 sp.s5 sp.s6)) $$ HS4
                iexact HS4'
              isplitl [HS5]
              · ihave HS5' := (owns_of_writes c scM0_5 VS0_5 _ (at[cover0_D_5, c, t] hc1 hc2 hc3 hc4 hc5 (iblk m c 0 t) (iblk m c 1 t) (iblk m c 2 t) (iblk m c 3 t) sp.s0 sp.s1 sp.s2 sp.s3 sp.s4 sp.s5 sp.s6)) $$ HS5
                iexact HS5'
              ihave HS6' := (owns_of_writes c scM0_6 VS0_6 _ (at[cover0_D_6, c, t] hc1 hc2 hc3 hc4 hc5 (iblk m c 0 t) (iblk m c 1 t) (iblk m c 2 t) (iblk m c 3 t) sp.s0 sp.s1 sp.s2 sp.s3 sp.s4 sp.s5 sp.s6)) $$ HS6
              iexact HS6'
            iexact Hg
          isplitl [Ho]; · iexact Ho
          isplitl [H0]; · iexact H0
          isplitl [H1]; · iexact H1
          isplitl [H2]; · iexact H2
          isplitl [H3]; · iexact H3
          isplitl [H4]; · iexists _; iexact H4
          iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  dsimp only [dats]; exact PhiS_forget m c _ _

end Cert.KernelIdeal.Tile

end
-- ==== Proof.TileLink.lean ====
/- The state the frame carries agrees, point by point, with the pure recursion over tiles. -/
import proofs.«180551_j55817394979145_1_alg».proof.Proof.TileFrame

set_option maxRecDepth 16384

noncomputable section

namespace Cert.KernelIdeal.Tile

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

open Idealize.ShloMosaic.ValueIdx

def ptOn (c : Dev nD) (t : Fin cfg0.N) : Pt F :=
  ⟨grid0.coords t, iblk m c 0 t, iblk m c 1 t, iblk m c 2 t, iblk m c 3 t⟩

def Scr.scratchEq (a b : Scr F) : Prop :=
  a.s0 = b.s0 ∧ a.s1 = b.s1 ∧ a.s2 = b.s2 ∧ a.s3 = b.s3 ∧ a.s4 = b.s4 ∧ a.s5 = b.s5 ∧ a.s6 = b.s6

theorem Scr.scratchEq_refl (a : Scr F) : Scr.scratchEq a a := ⟨rfl, rfl, rfl, rfl, rfl, rfl, rfl⟩

theorem caseA_link (c : Dev nD) (t : Fin cfg0.N) (h : t.val % 16 = 0) (s s' : Scr F) (hs : Scr.scratchEq s s') :
    Scr.scratchEq (caseA m c t h s) (stepThr (ptOn m c t) (resetThr s')) := by
  obtain ⟨o4, o5, a0, a1, a2, a3, a4, a5, a6⟩ := s
  obtain ⟨o4', o5', b0, b1, b2, b3, b4, b5, b6⟩ := s'
  obtain ⟨e0, e1, e2, e3, e4, e5, e6⟩ := hs
  dsimp only at e0 e1 e2 e3 e4 e5 e6
  subst e0 e1 e2 e3 e4 e5 e6
  unfold caseA sout0_A_0 sout0_A_1 stepThr resetThr ptOn Scr.scratchEq
  dsimp only
  exact ⟨piece0_A_0 .., piece0_A_1 .., rfl, rfl, rfl, rfl, rfl⟩

theorem caseB_link (c : Dev nD) (t : Fin cfg0.N) (h0 : ¬t.val % 16 = 0) (h1 : t.val % 16 < 8) (s s' : Scr F)
    (hs : Scr.scratchEq s s') : Scr.scratchEq (caseB m c t h0 h1 s) (stepThr (ptOn m c t) s') := by
  obtain ⟨o4, o5, a0, a1, a2, a3, a4, a5, a6⟩ := s
  obtain ⟨o4', o5', b0, b1, b2, b3, b4, b5, b6⟩ := s'
  obtain ⟨e0, e1, e2, e3, e4, e5, e6⟩ := hs
  dsimp only at e0 e1 e2 e3 e4 e5 e6
  subst e0 e1 e2 e3 e4 e5 e6
  unfold caseB sout0_B_0 sout0_B_1 stepThr ptOn Scr.scratchEq
  dsimp only
  exact ⟨piece0_B_0 .., piece0_B_1 .., rfl, rfl, rfl, rfl, rfl⟩

theorem caseC_link (c : Dev nD) (t : Fin cfg0.N) (h : t.val % 16 = 8) (s s' : Scr F) (hs : Scr.scratchEq s s') :
    Scr.scratchEq (caseC m c t h s) (stepAcc (ptOn m c t) (resetAcc s')) := by
  obtain ⟨o4, o5, a0, a1, a2, a3, a4, a5, a6⟩ := s
  obtain ⟨o4', o5', b0, b1, b2, b3, b4, b5, b6⟩ := s'
  obtain ⟨e0, e1, e2, e3, e4, e5, e6⟩ := hs
  dsimp only at e0 e1 e2 e3 e4 e5 e6
  subst e0 e1 e2 e3 e4 e5 e6
  unfold caseC sout0_C_2 sout0_C_3 sout0_C_4 sout0_C_5 sout0_C_6 stepAcc resetAcc ptOn Scr.scratchEq
  dsimp only
  exact ⟨rfl, rfl, piece0_C_2 .., piece0_C_3 .., piece0_C_4 .., piece0_C_5 .., piece0_C_6 ..⟩

theorem caseD_link (c : Dev nD) (t : Fin cfg0.N) (h : 9 ≤ t.val % 16 ∧ t.val % 16 ≤ 14) (s s' : Scr F)
    (hs : Scr.scratchEq s s') : Scr.scratchEq (caseD m c t h s) (stepAcc (ptOn m c t) s') := by
  obtain ⟨o4, o5, a0, a1, a2, a3, a4, a5, a6⟩ := s
  obtain ⟨o4', o5', b0, b1, b2, b3, b4, b5, b6⟩ := s'
  obtain ⟨e0, e1, e2, e3, e4, e5, e6⟩ := hs
  dsimp only at e0 e1 e2 e3 e4 e5 e6
  subst e0 e1 e2 e3 e4 e5 e6
  unfold caseD sout0_D_2 sout0_D_3 sout0_D_4 sout0_D_5 sout0_D_6 stepAcc ptOn Scr.scratchEq
  dsimp only
  exact ⟨rfl, rfl, piece0_D_2 .., piece0_D_3 .., piece0_D_4 .., piece0_D_5 .., piece0_D_6 ..⟩

theorem caseE_link (c : Dev nD) (t : Fin cfg0.N) (h : t.val % 16 = 15) (s s' : Scr F) (hs : Scr.scratchEq s s') :
    Scr.scratchEq (caseE m c t h s) (stepAcc (ptOn m c t) s')
      ∧ (caseE m c t h s).o4 = (stepAcc (ptOn m c t) s').o4 ∧ (caseE m c t h s).o5 = (stepAcc (ptOn m c t) s').o5 := by
  obtain ⟨o4, o5, a0, a1, a2, a3, a4, a5, a6⟩ := s
  obtain ⟨o4', o5', b0, b1, b2, b3, b4, b5, b6⟩ := s'
  obtain ⟨e0, e1, e2, e3, e4, e5, e6⟩ := hs
  dsimp only at e0 e1 e2 e3 e4 e5 e6
  subst e0 e1 e2 e3 e4 e5 e6
  unfold caseE out0_E_4 out0_E_5 sout0_E_2 sout0_E_3 sout0_E_4 sout0_E_5 sout0_E_6 stepAcc ptOn Scr.scratchEq
  dsimp only
  exact ⟨⟨rfl, rfl, piece0_E_2 .., piece0_E_3 .., piece0_E_4 .., piece0_E_5 .., piece0_E_6 ..⟩, piece0_E_out4 .., piece0_E_out5 ..⟩

theorem step_link (c : Dev nD) (n : ℕ) (hn : n < cfg0.N) (s s' : Scr F) (hs : Scr.scratchEq s s') :
    Scr.scratchEq (stateStep m c n hn s) (stepAt (n % 16) (ptOn m c ⟨n, hn⟩) s') := by
  unfold stateStep stepAt
  by_cases h0 : n % 16 = 0
  · rw [dif_pos h0, if_pos h0]; exact caseA_link m c ⟨n, hn⟩ h0 s s' hs
  · rw [dif_neg h0, if_neg h0]
    by_cases h1 : n % 16 < 8
    · rw [dif_pos h1, if_pos h1]; exact caseB_link m c ⟨n, hn⟩ h0 h1 s s' hs
    · rw [dif_neg h1, if_neg h1]
      by_cases h2 : n % 16 = 8
      · rw [dif_pos h2, if_pos h2]; exact caseC_link m c ⟨n, hn⟩ h2 s s' hs
      · rw [dif_neg h2, if_neg h2]
        by_cases h3 : n % 16 = 15
        · rw [dif_pos h3]; exact (caseE_link m c ⟨n, hn⟩ h3 s s' hs).1
        · rw [dif_neg h3]; exact caseD_link m c ⟨n, hn⟩ _ s s' hs

theorem step_link_out (c : Dev nD) (n : ℕ) (hn : n < cfg0.N) (h15 : n % 16 = 15) (s s' : Scr F) (hs : Scr.scratchEq s s') :
    (stateStep m c n hn s).o4 = (stepAt (n % 16) (ptOn m c ⟨n, hn⟩) s').o4
      ∧ (stateStep m c n hn s).o5 = (stepAt (n % 16) (ptOn m c ⟨n, hn⟩) s').o5 := by
  unfold stateStep stepAt
  rw [dif_neg (by omega : ¬n % 16 = 0), dif_neg (by omega : ¬n % 16 < 8), dif_neg (by omega : ¬n % 16 = 8), dif_pos h15,
    if_neg (by omega : ¬n % 16 = 0), if_neg (by omega : ¬n % 16 < 8), if_neg (by omega : ¬n % 16 = 8)]
  exact (caseE_link m c ⟨n, hn⟩ h15 s s' hs).2

theorem outsAt0_scratch (c : Dev nD) (B : ℕ → Pt F) (hB : ∀ (k : ℕ) (hk : k < cfg0.N), B k = ptOn m c ⟨k, hk⟩) :
    ∀ (n : ℕ) (hn : n < cfg0.N), Scr.scratchEq (outsAt0 m c n hn) (scrAt B n)
  | 0, hn => by
    show Scr.scratchEq (stateStep m c 0 hn Scr.any) (stepAt 0 (B 0) Scr.any)
    rw [hB 0 hn]
    exact step_link m c 0 hn Scr.any Scr.any (Scr.scratchEq_refl _)
  | n + 1, hn => by
    show Scr.scratchEq (stateStep m c (n + 1) hn (outsAt0 m c n (Nat.lt_of_succ_lt hn))) (scrAt B (n + 1))
    rw [scrAt_succ, hB (n + 1) hn]
    exact step_link m c (n + 1) hn _ _ (outsAt0_scratch c B hB n (Nat.lt_of_succ_lt hn))

theorem outsAt0_outs (c : Dev nD) (B : ℕ → Pt F) (hB : ∀ (k : ℕ) (hk : k < cfg0.N), B k = ptOn m c ⟨k, hk⟩)
    (n : ℕ) (hn : n < cfg0.N) (h15 : n % 16 = 15) :
    (outsAt0 m c n hn).o4 = (scrAt B n).o4 ∧ (outsAt0 m c n hn).o5 = (scrAt B n).o5 := by
  cases n with
  | zero => exact absurd h15 (by decide)
  | succ n =>
    show (stateStep m c (n + 1) hn (outsAt0 m c n (Nat.lt_of_succ_lt hn))).o4 = (scrAt B (n + 1)).o4
      ∧ (stateStep m c (n + 1) hn (outsAt0 m c n (Nat.lt_of_succ_lt hn))).o5 = (scrAt B (n + 1)).o5
    rw [scrAt_succ, hB (n + 1) hn]
    exact step_link_out m c (n + 1) hn h15 _ _ (outsAt0_scratch m c B hB n (Nat.lt_of_succ_lt hn))

end Cert.KernelIdeal.Tile

end
-- ==== Proof.TileLaunch.lean ====
/- The program around the grid: the host operations before and after it, the frame run, and the two arguments left as they were. -/
import proofs.«180551_j55817394979145_1_alg».proof.Proof.TileRuns

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

abbrev tailWrites : List (Ref sig .tc) :=
  [main_cst, main_v4, main_cst_0, main_v5, main_v6, main_v7, main_c,
   main_call1_v0, main_call1_v1, main_call1_v2, main_call1_v3, main_call1_v4, main_call1_v5, main_call1_v6,
   main_call1_v7, main_call1_v8, main_call1_c, main_call1_v9, main_call1_v10, main_call1_v11, main_call1_c_0,
   main_call1_v12, main_call1_v13, main_v8, main_c_1, main_v9, main_c_2]

theorem tail_writes : ∀ ops ∈ (tailOps (F := F)), ∀ op ∈ ops,
    (∃ y ∈ tailWrites, op.writes = {Proc.devRef (τ := τ) .tc y}) ∧ op.fresh = ∅ := by
  intro ops hops op hop
  simp only [tailOps, List.mem_cons, List.mem_nil_iff, or_false] at hops
  rcases hops with rfl | rfl | rfl | rfl | rfl
  · simp only [hostOps1, List.mem_cons, List.mem_nil_iff, or_false] at hop
    rcases hop with rfl | rfl | rfl | rfl
    all_goals exact ⟨⟨_, by decide, rfl⟩, rfl⟩
  · simp only [hostOps1_1, List.mem_cons, List.mem_nil_iff, or_false] at hop
    rcases hop with rfl
    all_goals exact ⟨⟨_, by decide, rfl⟩, rfl⟩
  · simp only [hostOps1_2, List.mem_cons, List.mem_nil_iff, or_false] at hop
    rcases hop with rfl | rfl
    all_goals exact ⟨⟨_, by decide, rfl⟩, rfl⟩
  · simp only [hostOps1_3, List.mem_cons, List.mem_nil_iff, or_false] at hop
    rcases hop with rfl | rfl | rfl | rfl | rfl | rfl | rfl | rfl | rfl | rfl | rfl | rfl | rfl | rfl | rfl | rfl | rfl
    all_goals exact ⟨⟨_, by decide, rfl⟩, rfl⟩
  · simp only [hostOps1_4, List.mem_cons, List.mem_nil_iff, or_false] at hop
    rcases hop with rfl | rfl | rfl
    all_goals exact ⟨⟨_, by decide, rfl⟩, rfl⟩

theorem tail_not_written {r : Ref sig .tc} (hr : r ∉ tailWrites) :
    ∀ op ∈ (tailOps (F := F)).flatten, Proc.devRef (τ := τ) .tc r ∉ op.writes := fun op hop h => by
  obtain ⟨ops, hops, hop'⟩ := List.mem_flatten.mp hop
  obtain ⟨⟨y, hy, e⟩, -⟩ := tail_writes ops hops op hop'
  rw [e, Finset.mem_singleton] at h
  exact hr (Proc.devRef_injective _ h ▸ hy)

theorem head_writes : ∀ op ∈ (hostOps0 : List (HloOp τ sig (Elt F))),
    ∃ y ∈ [main_v0, main_v1, main_v2], op.writes = {Proc.devRef (τ := τ) .tc y} := by
  intro op hop
  simp only [hostOps0, List.mem_cons, List.mem_nil_iff, or_false] at hop
  rcases hop with rfl | rfl | rfl
  all_goals exact ⟨_, by decide, rfl⟩

theorem V0_of_not_written (c : Dev nD) {r : Ref sig .tc} (hr : r ∉ [main_v0, main_v1, main_v2]) :
    V0 m c (Proc.devRef .tc r) = m (c, Proc.devRef .tc r) := by
  unfold V0
  rw [StableHlo.after_of_forall_not_mem _ _ fun op hop h => ?_]
  simp only [List.flatten, List.append_nil] at hop
  obtain ⟨y, hy, e⟩ := head_writes op hop
  rw [e, Finset.mem_singleton] at h
  exact hr (Proc.devRef_injective _ h ▸ hy)

theorem arr_not_tailWritten : ∀ w : Fin 6, Pipeline.arrRef spec0 w ∉ tailWrites := by decide

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ :=
  fun ops hops op hop => (tail_writes ops hops op hop).2

theorem sfx_keeps : ∀ ops ∈ (tailOps : List (List (HloOp τ sig (Elt F)))), ∀ op ∈ ops,
    ∀ w, Proc.devRef .tc (Pipeline.arrRef spec0 w) ∉ op.writes :=
  fun ops hops op hop w => tail_not_written (arr_not_tailWritten w) op (List.mem_flatten.mpr ⟨ops, hops, hop⟩)

def Wx (dats : (p : Fin 1) → (c : Dev nD) → Dat τ (Elt F) Unit ℕ (UR sig nD τ) ℕ (cfgs p) c) (c : Dev nD) : Valuation τ sig (Elt F) :=
  Function.update (Function.update (V0 m c) (Proc.devRef .tc main_v3_0) ((dats 0 c).arrAt 4 cfg0.N))
    (Proc.devRef .tc main_v3_1) ((dats 0 c).arrAt 5 cfg0.N)

variable (dats : (p : Fin 1) → (c : Dev nD) → Dat τ (Elt F) Unit ℕ (UR sig nD τ) ℕ (cfgs p) c)

theorem Wx_out4 (c : Dev nD) : Wx m dats c (Proc.devRef .tc main_v3_0) = (dats 0 c).arrAt 4 cfg0.N := by
  unfold Wx
  rw [Function.update_of_ne (StableHlo.devRef_ne_of_ne (by decide)), Function.update_self]

theorem Wx_out5 (c : Dev nD) : Wx m dats c (Proc.devRef .tc main_v3_1) = (dats 0 c).arrAt 5 cfg0.N := by
  unfold Wx
  rw [Function.update_self]

theorem Wx_other (c : Dev nD) (b : Ref sig .tc) (h4 : b ≠ main_v3_0) (h5 : b ≠ main_v3_1) :
    Wx m dats c (Proc.devRef .tc b) = V0 m c (Proc.devRef .tc b) := by
  unfold Wx
  rw [Function.update_of_ne (StableHlo.devRef_ne_of_ne h5), Function.update_of_ne (StableHlo.devRef_ne_of_ne h4)]

theorem arrRef_image : Finset.univ.image (Pipeline.arrRef spec0) = [main_v0, main_v1, main_v2, main_v3_0, main_v3_1].toFinset := by decide

theorem arrBufs_chain (c : Dev nD) (Vv : (b : Ref sig .tc) → Buf (Elt F) ((c.tc : Thread nD τ).loc b)) :
    (Pipeline.arrBufs (Ix := Unit) (Name := ℕ) (U := UR sig nD τ) (Lvl := ℕ) spec0 c Vv : sProp 𝕄)
      = iprop((((c.tc : Thread nD τ).loc main_v0) ↦{fullShare} Vv main_v0) ∗ (((c.tc : Thread nD τ).loc main_v1) ↦{fullShare} Vv main_v1)
          ∗ (((c.tc : Thread nD τ).loc main_v2) ↦{fullShare} Vv main_v2) ∗ (((c.tc : Thread nD τ).loc main_v3_0) ↦{fullShare} Vv main_v3_0)
          ∗ (((c.tc : Thread nD τ).loc main_v3_1) ↦{fullShare} Vv main_v3_1)) := by
  unfold Pipeline.arrBufs
  exact bigSep_eq_bigSepL_of_eq _ arrRef_image (by decide) _

theorem share_eq (hq : ∀ c w, (dats 0 c).q w = qShare w) (c : Dev nD) : ∀ w : Fin 6, (dats 0 c).share w = qShare w
  | 0 => by unfold Dat.share; rw [if_neg (by decide)]; exact hq c 0
  | 1 => by unfold Dat.share; rw [if_neg (by decide)]; exact hq c 1
  | 2 => by unfold Dat.share; rw [if_neg (by decide)]; exact hq c 2
  | 3 => by unfold Dat.share; rw [if_neg (by decide)]; exact hq c 3
  | 4 => by unfold Dat.share; rw [if_pos (by decide)]
  | 5 => by unfold Dat.share; rw [if_pos (by decide)]
  | ⟨_ + 6, h⟩ => absurd h (Nat.not_lt.2 (Nat.le_add_left _ _))

theorem arrays_chain (hq : ∀ c w, (dats 0 c).q w = qShare w) (c : Dev nD)
    (G : (w : Fin cfg0.W) → Buf (Elt F) ((cfg0.win w).arr.view.loc (c.tc : Thread nD τ))) :
    ((dats 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v1) ↦{fullShare} G 2) ∗ (((c.tc : Thread nD τ).loc main_v2) ↦{fullShare} G 3)
          ∗ (((c.tc : Thread nD τ).loc main_v3_0) ↦{fullShare} G 4) ∗ (((c.tc : Thread nD τ).loc main_v3_1) ↦{fullShare} G 5)) := by
  have h1 : ((dats 0 c).arrays G : sProp 𝕄)
      = bigSep Finset.univ fun w : Fin 6 => (((c.tc : Thread nD τ).loc (Pipeline.arrRef spec0 w)) ↦{qShare w} G w : sProp 𝕄) := by
    unfold Dat.arrays
    exact bigSep_congr fun w _ => by rw [(arr_whole0 w).set_eq_univ, share_eq dats hq c w]
  rw [h1, bigSep_W0]

theorem arrays_arrBufs (hq : ∀ c w, (dats 0 c).q w = qShare w) (c : Dev nD)
    (G : (w : Fin cfg0.W) → Buf (Elt F) ((cfg0.win w).arr.view.loc (c.tc : Thread nD τ)))
    (Vv : (b : Ref sig .tc) → Buf (Elt F) ((c.tc : Thread nD τ).loc b)) (hG : ∀ w, G w = Vv (Pipeline.arrRef spec0 w)) :
    ((dats 0 c).arrays G : sProp 𝕄) ⊣⊢ Pipeline.arrBufs spec0 c Vv := by
  obtain rfl : G = fun w => Vv (Pipeline.arrRef spec0 w) := funext hG
  rw [arrays_chain dats hq c, arrBufs_chain c Vv]
  have hs : ((((c.tc : Thread nD τ).loc main_v0) ↦{fullShare} Vv main_v0 : sProp 𝕄))
      ⊣⊢ iprop((((c.tc : Thread nD τ).loc main_v0) ↦{fullShare.left} Vv main_v0) ∗ (((c.tc : Thread nD τ).loc main_v0) ↦{fullShare.right} Vv main_v0)) :=
    pointsTo_share (PosShare.mem_left_op_right fullShare)
  constructor
  · iintro ⟨H0, H1, H2, H3, H4, H5⟩
    isplitl [H0 H1]
    · iapply hs.2
      isplitl [H0]; · iexact H0
      iexact H1
    isplitl [H2]; · iexact H2
    isplitl [H3]; · iexact H3
    isplitl [H4]; · iexact H4
    iexact H5
  · iintro ⟨H0, H2, H3, H4, H5⟩
    ihave H01 := hs.1 $$ H0
    icases H01 with ⟨H0, H1⟩
    isplitl [H0]; · iexact H0
    isplitl [H1]; · iexact H1
    isplitl [H2]; · iexact H2
    isplitl [H3]; · iexact H3
    isplitl [H4]; · iexact H4
    iexact H5

theorem arrAt_last (hA : ∀ c w, (dats 0 c).A w = V m c (Pipeline.arrRef spec0 w)) (c : Dev nD) :
    ∀ w : Fin 6, (dats 0 c).arrAt w cfg0.N = Wx m dats c (Proc.devRef .tc (Pipeline.arrRef spec0 w))
  | 0 => ((dats 0 c).arrAt_in 0 rfl _).trans ((hA c 0).trans (Wx_other m dats c main_v0 (by decide) (by decide)).symm)
  | 1 => ((dats 0 c).arrAt_in 1 rfl _).trans ((hA c 1).trans (Wx_other m dats c main_v0 (by decide) (by decide)).symm)
  | 2 => ((dats 0 c).arrAt_in 2 rfl _).trans ((hA c 2).trans (Wx_other m dats c main_v1 (by decide) (by decide)).symm)
  | 3 => ((dats 0 c).arrAt_in 3 rfl _).trans ((hA c 3).trans (Wx_other m dats c main_v2 (by decide) (by decide)).symm)
  | 4 => (Wx_out4 m dats c).symm
  | 5 => (Wx_out5 m dats c).symm
  | ⟨_ + 6, h⟩ => absurd h (Nat.not_lt.2 (Nat.le_add_left _ _))

theorem hsplit (hA : ∀ c w, (dats 0 c).A w = V m c (Pipeline.arrRef spec0 w)) (hq : ∀ c w, (dats 0 c).q w = qShare w) (c : Dev nD) :
    (Pipeline.arrBufs spec0 c (fun b => V0 m c (Proc.devRef .tc b)) : sProp 𝕄) ⊢ (dats 0 c).arrays ((dats 0 c).arrAt · 0) :=
  (arrays_arrBufs dats hq c _ _ fun w => hA c w).2

theorem hjoin (hA : ∀ c w, (dats 0 c).A w = V m c (Pipeline.arrRef spec0 w)) (hq : ∀ c w, (dats 0 c).q w = qShare w) (c : Dev nD) :
    ((dats 0 c).arrays ((dats 0 c).arrAt · cfg0.N) : sProp 𝕄) ⊢ Pipeline.arrBufs spec0 c (fun b => Wx m dats c (Proc.devRef .tc b)) :=
  (arrays_arrBufs dats hq c _ _ (arrAt_last m dats hA c)).1

theorem hjoin' (hA : ∀ c w, (dats 0 c).A w = V m c (Pipeline.arrRef spec0 w)) (hq : ∀ c w, (dats 0 c).q w = qShare w) (c : Dev nD) :
    (Pipeline.arrBufs spec0 c (fun b => Wx m dats c (Proc.devRef .tc b)) : sProp 𝕄) ⊢ (dats 0 c).arrays ((dats 0 c).arrAt · cfg0.N) :=
  (arrays_arrBufs dats hq c _ _ (arrAt_last m dats hA c)).2

theorem hWx (c : Dev nD) : ∀ b ∈ Pipeline.restRefs sig spec0, Wx m dats c (Proc.devRef .tc b) = V0 m c (Proc.devRef .tc b) := fun b hb =>
  have hb' : b ∉ Finset.univ.image (Pipeline.arrRef spec0) := (Finset.mem_sdiff.mp hb).2
  Wx_other m dats c b (fun e => hb' (Finset.mem_image.mpr ⟨4, Finset.mem_univ _, e.symm⟩))
    (fun e => hb' (Finset.mem_image.mpr ⟨5, Finset.mem_univ _, e.symm⟩))

set_option backward.isDefEq.respectTransparency.types false in

theorem run_main_of (hA : ∀ c w, (dats 0 c).A w = V m c (Pipeline.arrRef spec0 w)) (hq : ∀ c w, (dats 0 c).q w = qShare w)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c)
    (howed : ∀ c t, (dats 0 c).owed t = 0) :
    θ_run defs (onTc (τ := τ) (main (F := F))) (s₀ m ρ)
      (Pipeline.FramePost cfgs dats 0 (fun c b => StableHlo.after tailOps.flatten (Wx m dats c) (Proc.devRef .tc b))) :=
  SharedArrayLaunch.θ_run_frame_around_track_shared cfgs dats (0 : Fin 1) defs₀ Variants.none cellOf_inj winFacts₀0 block_pos0 arr_whole0 stage_whole0
    m ρ main (fun c => (hbody c).loose) howed (V0 m) (Wx m dats) tailOps sfx_sub sfx_fresh sfx_keeps (hmain m Variants.none)
    (hsplit m dats hA hq) (hjoin m dats hA hq) (hjoin' m dats hA hq) (hWx m dats) hin hout

theorem post_results (hA : ∀ c w, (dats 0 c).A w = V m c (Pipeline.arrRef spec0 w)) (r : PUnit × MemSt nD τ sig (Elt F))
    (h : Pipeline.FramePost cfgs dats 0 (fun c b => StableHlo.after tailOps.flatten (Wx m dats c) (Proc.devRef .tc b)) r) (c : Dev nD) :
    r.2.mem ((c.tc : Thread nD τ).loc main_v5) = StableHlo.after tailOps.flatten (Wx m dats c) (Proc.devRef .tc main_v5)
    ∧ r.2.mem ((c.tc : Thread nD τ).loc main_v9) = StableHlo.after tailOps.flatten (Wx m dats c) (Proc.devRef .tc main_v9)
    ∧ r.2.mem ((c.tc : Thread nD τ).loc main_c_2) = StableHlo.after tailOps.flatten (Wx m dats c) (Proc.devRef .tc main_c_2)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  have harg : ∀ b : Ref sig .tc, b ∈ Pipeline.restRefs sig spec0 → b ∉ tailWrites → b ≠ main_v3_0 → b ≠ main_v3_1 → b ∉ [main_v0, main_v1, main_v2] →
      r.2.mem ((c.tc : Thread nD τ).loc b) = m ((c.tc : Thread nD τ).loc b) := fun b hb ht h4 h5 h0 =>
    ((h c).2 b hb).trans ((StableHlo.after_of_forall_not_mem _ _ (tail_not_written ht)).trans
      ((Wx_other m dats c b h4 h5).trans (V0_of_not_written m c h0)))
  exact ⟨(h c).2 main_v5 (Pipeline.mem_restRefs_of _ rfl (by decide)), (h c).2 main_v9 (Pipeline.mem_restRefs_of _ rfl (by decide)),
    (h c).2 main_c_2 (Pipeline.mem_restRefs_of _ rfl (by decide)),
    harg main_arg0 (Pipeline.mem_restRefs_of _ rfl (by decide)) (by decide) (by decide) (by decide) (by decide),
    harg main_arg1 (Pipeline.mem_restRefs_of _ rfl (by decide)) (by decide) (by decide) (by decide) (by decide)⟩

theorem frame_of (hA : ∀ c w, (dats 0 c).A w = V m c (Pipeline.arrRef spec0 w))
    (h : θ_run defs (onTc (τ := τ) (main (F := F))) (s₀ m ρ)
      (Pipeline.FramePost cfgs dats 0 (fun c b => StableHlo.after tailOps.flatten (Wx m dats c) (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨(post_results m dats hA r hr c).2.2.2.1, (post_results m dats hA r hr c).2.2.2.2⟩) h

end Cert.KernelIdeal.Tile

end
-- ==== Proof.TripletSpec.lean ====
/- The specification: per row the two thresholds, the selected columns, the row loss and the count; then the mean loss and the sum of halved counts. -/
import Idealize.ShloMosaic.PureOps.Ideal

noncomputable section

open scoped BigOperators

namespace TripletSpec

open Idealize.ShloMosaic

abbrev negBig : EReal := Ideal.ofBits .f32 0xCE6E6B28#32
abbrev posBig : EReal := Ideal.ofBits .f32 0x4E6E6B28#32
abbrev one    : EReal := Ideal.ofBits .f32 0x3F800000#32
abbrev half   : EReal := Ideal.ofBits .f32 0x3F000000#32
abbrev forty  : EReal := Ideal.ofBits .f32 0x42200000#32
abbrev inv20  : EReal := Ideal.ofBits .f32 0x3D4CCCCD#32
abbrev nRows  : EReal := Ideal.ofBits .f32 0x46000000#32

variable (e : Fin 8192 → Fin 512 → EReal) (l : Fin 8192 → BitVec 32)

def sim (r c : Fin 8192) : EReal := ∑ k : Fin 512, e r k * e c k

def pos (r c : Fin 8192) : Prop := l r = l c ∧ r ≠ c

def neg (r c : Fin 8192) : Prop := l r ≠ l c

instance (r c : Fin 8192) : Decidable (pos l r c) := by unfold pos; infer_instance
instance (r c : Fin 8192) : Decidable (neg l r c) := by unfold neg; infer_instance

def maxPos (r : Fin 8192) : EReal := Finset.univ.sup fun c : Fin 8192 => if pos l r c then sim e r c else negBig

def minNeg (r : Fin 8192) : EReal := Finset.univ.inf fun c : Fin 8192 => if neg l r c then sim e r c else posBig

def negSel (r c : Fin 8192) : Prop := neg l r c ∧ sim e r c < maxPos e l r

def posSel (r c : Fin 8192) : Prop := pos l r c ∧ minNeg e l r < sim e r c

instance (r c : Fin 8192) : Decidable (negSel e l r c) := by unfold negSel; infer_instance
instance (r c : Fin 8192) : Decidable (posSel e l r c) := by unfold posSel; infer_instance

def posSum (r : Fin 8192) : EReal := ∑ c : Fin 8192, if posSel e l r c then one - sim e r c else 0
def posCnt (r : Fin 8192) : ℕ := (Finset.univ.filter fun c : Fin 8192 => posSel e l r c).card
def negCnt (r : Fin 8192) : ℕ := (Finset.univ.filter fun c : Fin 8192 => negSel e l r c).card
def expSum (r : Fin 8192) : EReal := ∑ c : Fin 8192, if negSel e l r c then Ideal.exp (forty * (sim e r c - half)) else 0
def negSum (r : Fin 8192) : EReal := ∑ c : Fin 8192, if negSel e l r c then sim e r c else 0

abbrev cnt (n : ℕ) : EReal := ((n : ℝ) : EReal)

def rowLoss (r : Fin 8192) : EReal :=
  (if 0 < posCnt e l r then Ideal.div (posSum e l r) (max (cnt (posCnt e l r)) one) else 0)
  + (if 0 < negCnt e l r
      then inv20 * Ideal.log1p (expSum e l r) + Ideal.div (negSum e l r) (max (cnt (negCnt e l r)) one) else 0)

def loss : EReal := Ideal.div (∑ r : Fin 8192, rowLoss e l r) nRows

def triplets (halve : BitVec 32 → BitVec 32) : BitVec 32 :=
  BitVec.ofNat 32 (∑ r : Fin 8192, (halve (BitVec.ofNat 32 (negCnt e l r))).toNat)

theorem not_pos_self (r : Fin 8192) : ¬ pos l r r := fun h => h.2 rfl
theorem not_neg_self (r : Fin 8192) : ¬ neg l r r := fun h => h rfl

theorem negBig_le_maxPos (r : Fin 8192) : negBig ≤ maxPos e l r := by
  unfold maxPos
  have h := Finset.le_sup (f := fun c : Fin 8192 => if pos l r c then sim e r c else negBig) (Finset.mem_univ r)
  simpa [not_pos_self l r] using h

theorem minNeg_le_posBig (r : Fin 8192) : minNeg e l r ≤ posBig := by
  unfold minNeg
  have h := Finset.inf_le (f := fun c : Fin 8192 => if neg l r c then sim e r c else posBig) (Finset.mem_univ r)
  simpa [not_neg_self l r] using h

end TripletSpec

end
-- ==== Proof.TileArrays.lean ====
/- The grid's points as tiles of the arrays: a row tile, a column tile, and their labels. -/
import proofs.«180551_j55817394979145_1_alg».proof.Proof.TileSteps
import proofs.«180551_j55817394979145_1_alg».proof.Proof.TripletSpec

noncomputable section

namespace Cert.KernelIdeal.Tile

open Idealize.ShloMosaic Idealize.ShloMosaic.ValueIdx Cert.KernelIdeal Cert.KernelIdeal.Gen

abbrev rows (E : Vec Ideal S8192x512 .bf16) : Fin 8192 → Fin 512 → EReal := fun r k => E (ix2 r k)

abbrev labs (Lc : Vec Ideal S8192x1 .i32) : Fin 8192 → BitVec 32 := fun r => Lc (ix2 r (0 : Fin 1))

abbrev ptsOf (E : Vec Ideal S8192x512 .bf16) (Lc : Vec Ideal S8192x1 .i32) (Lr : Vec Ideal S1x8192 .i32) : ℕ → Pt Ideal :=
  ptOf coordsOf E Lc Lr

theorem coords_closed : ∀ t : Fin grid0.N,
    (grid0.coords t 0).val = t.val / 16 ∧ (grid0.coords t 1).val = (t.val / 8) % 2 ∧ (grid0.coords t 2).val = t.val % 8 := by
  decide +kernel

theorem coordsOf_of_lt (n : ℕ) (hn : n < 128) : coordsOf n = grid0.coords ⟨n, by rw [coordsOf.N_0_aux]; exact hn⟩ := by
  unfold coordsOf
  congr 1
  exact Fin.ext (Nat.mod_eq_of_lt hn)

theorem coordsOf_row (n : ℕ) (hn : n < 128) : (coordsOf n 0).val = n / 16 := by
  rw [coordsOf_of_lt n hn]; exact (coords_closed _).1
theorem coordsOf_col (n : ℕ) (hn : n < 128) : (coordsOf n 2).val = n % 8 := by
  rw [coordsOf_of_lt n hn]; exact (coords_closed _).2.2

end Cert.KernelIdeal.Tile

end
-- ==== Proof.TileBlocks.lean ====
/- Each operand's block at a grid point is the matching tile of its array. -/
import proofs.«180551_j55817394979145_1_alg».proof.Proof.TileRuns
import proofs.«180551_j55817394979145_1_alg».proof.Proof.TileSteps
import proofs.«180551_j55817394979145_1_alg».proof.Proof.TileArrays
import Idealize.ShloMosaic.Lib.StableHlo.Run
import Idealize.ShloMosaic.Lib.Pipeline.Value
import Idealize.ShloMosaic.Lib.ValueLayout

set_option maxRecDepth 16384

noncomputable section

namespace Cert.KernelIdeal.Tile

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem index0_0 : ∀ t : Fin cfg0.N, (cfg0.win 0).index t (0 : Fin 2) = t.val / 16 ∧ (cfg0.win 0).index t (1 : Fin 2) = 0 :=
  (by decide +kernel : ∀ t : Fin grid0.N, win0_0.index t (0 : Fin 2) = t.val / 16 ∧ win0_0.index t (1 : Fin 2) = 0)
theorem index0_1 : ∀ t : Fin cfg0.N, (cfg0.win 1).index t (0 : Fin 2) = t.val % 8 ∧ (cfg0.win 1).index t (1 : Fin 2) = 0 :=
  (by decide +kernel : ∀ t : Fin grid0.N, win0_1.index t (0 : Fin 2) = t.val % 8 ∧ win0_1.index t (1 : Fin 2) = 0)
theorem index0_2 : ∀ t : Fin cfg0.N, (cfg0.win 2).index t (0 : Fin 2) = t.val / 16 ∧ (cfg0.win 2).index t (1 : Fin 2) = 0 :=
  (by decide +kernel : ∀ t : Fin grid0.N, win0_2.index t (0 : Fin 2) = t.val / 16 ∧ win0_2.index t (1 : Fin 2) = 0)
theorem index0_3 : ∀ t : Fin cfg0.N, (cfg0.win 3).index t (0 : Fin 2) = 0 ∧ (cfg0.win 3).index t (1 : Fin 2) = t.val % 8 :=
  (by decide +kernel : ∀ t : Fin grid0.N, win0_3.index t (0 : Fin 2) = 0 ∧ win0_3.index t (1 : Fin 2) = t.val % 8)
theorem index0_4 : ∀ t : Fin cfg0.N, (cfg0.win 4).index t (0 : Fin 2) = t.val / 16 ∧ (cfg0.win 4).index t (1 : Fin 2) = 0 :=
  (by decide +kernel : ∀ t : Fin grid0.N, win0_4.index t (0 : Fin 2) = t.val / 16 ∧ win0_4.index t (1 : Fin 2) = 0)
theorem index0_5 : ∀ t : Fin cfg0.N, (cfg0.win 5).index t (0 : Fin 2) = t.val / 16 ∧ (cfg0.win 5).index t (1 : Fin 2) = 0 :=
  (by decide +kernel : ∀ t : Fin grid0.N, win0_5.index t (0 : Fin 2) = t.val / 16 ∧ win0_5.index t (1 : Fin 2) = 0)

theorem V_emb (c : Dev nD) :
    (V (F := Ideal) m c main_v0 : S8192x512.Idx → EReal) = (m ((c : Thread nD τ).loc main_arg0) : S8192x512.Idx → EReal) := by
  show StableHlo.after (List.flatten [hostOps0]) (fun b => m (c, b)) (Proc.devRef .tc main_v0) = _
  simp only [hostOps0, List.flatten_cons, List.flatten_nil, List.append_nil]
  after_results
  rfl

theorem V_labc (c : Dev nD) (r : Fin 8192) :
    (V (F := Ideal) m c main_v1 : S8192x1.Idx → BitVec 32) (ix2 r (0 : Fin 1))
      = (m ((c : Thread nD τ).loc main_arg1) : S8192.Idx → BitVec 32) (ix1 r) := by
  have e : (V (F := Ideal) m c main_v1 : S8192x1.Idx → BitVec 32)
      = shapeCast S8192x1 (m ((c : Thread nD τ).loc main_arg1) : S8192.Idx → BitVec 32) shapeCasts_S8192_S8192x1 := by
    show StableHlo.after (List.flatten [hostOps0]) (fun b => m (c, b)) (Proc.devRef .tc main_v1) = _
    simp only [hostOps0, List.flatten_cons, List.flatten_nil, List.append_nil]
    after_results
    rfl
  rw [e]
  have hk : (S8192.rowMajor (ix1 r)).val = (S8192x1.rowMajor (ix2 r (0 : Fin 1))).val := by
    rw [Shape.rowMajor_val_two, Shape.rowMajor_val_one]
    show r.val = r.val * 1 + 0
    omega
  exact shapeCast_apply (s := S8192) (t := S8192x1) _ _ _ _ hk

theorem V_labr (c : Dev nD) (r : Fin 8192) :
    (V (F := Ideal) m c main_v2 : S1x8192.Idx → BitVec 32) (ix2 (0 : Fin 1) r)
      = (m ((c : Thread nD τ).loc main_arg1) : S8192.Idx → BitVec 32) (ix1 r) := by
  have e : (V (F := Ideal) m c main_v2 : S1x8192.Idx → BitVec 32)
      = shapeCast S1x8192 (m ((c : Thread nD τ).loc main_arg1) : S8192.Idx → BitVec 32) shapeCasts_S8192_S1x8192 := by
    show StableHlo.after (List.flatten [hostOps0]) (fun b => m (c, b)) (Proc.devRef .tc main_v2) = _
    simp only [hostOps0, List.flatten_cons, List.flatten_nil, List.append_nil]
    after_results
    rfl
  rw [e]
  exact shapeCast_a_1a_apply _ _ _ _

theorem iblk0_apply (c : Dev nD) (t : Fin cfg0.N) (y : S1024x512.Idx) :
    iblk (F := Ideal) m c 0 t y
      = (V (F := Ideal) m c main_v0 : S8192x512.Idx → EReal)
          (ix2 (⟨1024 * ((t.val / 16) % 8) + (y 0).val, by have := idx2_lt0 y; omega⟩ : Fin 8192) (⟨(y 1).val, idx2_lt1 y⟩ : Fin 512)) := by
  have hN : t.val < 128 := lt_of_lt_of_eq t.isLt (show cfg0.N = 128 from N_0)
  show (V (F := Ideal) m c main_v0 : S8192x512.Idx → EReal) (((cfg0.win 0).blk t).view.emb y) = _
  refine congrArg _ ?_
  funext a; apply Fin.ext
  match a with
  | ⟨0, _⟩ =>
    show win0_0.index t (0 : Fin 2) * 1024 + 1 * (y 0).val = 1024 * ((t.val / 16) % 8) + (y 0).val
    rw [(index0_0 t).1]; omega
  | ⟨1, _⟩ =>
    show win0_0.index t (1 : Fin 2) * 512 + 1 * (y 1).val = (y 1).val
    rw [(index0_0 t).2]; omega

theorem iblk1_apply (c : Dev nD) (t : Fin cfg0.N) (y : S1024x512.Idx) :
    iblk (F := Ideal) m c 1 t y
      = (V (F := Ideal) m c main_v0 : S8192x512.Idx → EReal)
          (ix2 (⟨1024 * ((t.val % 8) % 8) + (y 0).val, by have := idx2_lt0 y; omega⟩ : Fin 8192) (⟨(y 1).val, idx2_lt1 y⟩ : Fin 512)) := by
  show (V (F := Ideal) m c main_v0 : S8192x512.Idx → EReal) (((cfg0.win 1).blk t).view.emb y) = _
  refine congrArg _ ?_
  funext a; apply Fin.ext
  match a with
  | ⟨0, _⟩ =>
    show win0_1.index t (0 : Fin 2) * 1024 + 1 * (y 0).val = 1024 * ((t.val % 8) % 8) + (y 0).val
    rw [(index0_1 t).1]; omega
  | ⟨1, _⟩ =>
    show win0_1.index t (1 : Fin 2) * 512 + 1 * (y 1).val = (y 1).val
    rw [(index0_1 t).2]; omega

theorem iblk2_apply (c : Dev nD) (t : Fin cfg0.N) (y : S1024x1.Idx) :
    iblk (F := Ideal) m c 2 t y
      = (V (F := Ideal) m c main_v1 : S8192x1.Idx → BitVec 32)
          (ix2 (⟨1024 * ((t.val / 16) % 8) + (y 0).val, by have := idx2_lt0 y; omega⟩ : Fin 8192) (0 : Fin 1)) := by
  have hN : t.val < 128 := lt_of_lt_of_eq t.isLt (show cfg0.N = 128 from N_0)
  show (V (F := Ideal) m c main_v1 : S8192x1.Idx → BitVec 32) (((cfg0.win 2).blk t).view.emb y) = _
  refine congrArg _ ?_
  funext a; apply Fin.ext
  match a with
  | ⟨0, _⟩ =>
    show win0_2.index t (0 : Fin 2) * 1024 + 1 * (y 0).val = 1024 * ((t.val / 16) % 8) + (y 0).val
    rw [(index0_2 t).1]; omega
  | ⟨1, _⟩ =>
    show win0_2.index t (1 : Fin 2) * 1 + 1 * (y 1).val = 0
    rw [(index0_2 t).2]; have := idx2_lt1 y; omega

theorem iblk3_apply (c : Dev nD) (t : Fin cfg0.N) (y : S1x1024.Idx) :
    iblk (F := Ideal) m c 3 t y
      = (V (F := Ideal) m c main_v2 : S1x8192.Idx → BitVec 32)
          (ix2 (0 : Fin 1) (⟨1024 * ((t.val % 8) % 8) + (y 1).val, by have := idx2_lt1 y; omega⟩ : Fin 8192)) := by
  show (V (F := Ideal) m c main_v2 : S1x8192.Idx → BitVec 32) (((cfg0.win 3).blk t).view.emb y) = _
  refine congrArg _ ?_
  funext a; apply Fin.ext
  match a with
  | ⟨0, _⟩ =>
    show win0_3.index t (0 : Fin 2) * 1 + 1 * (y 0).val = 0
    rw [(index0_3 t).1]; have := idx2_lt0 y; omega
  | ⟨1, _⟩ =>
    show win0_3.index t (1 : Fin 2) * 1024 + 1 * (y 1).val = 1024 * ((t.val % 8) % 8) + (y 1).val
    rw [(index0_3 t).2]; omega

theorem pt_eq (c : Dev nD) (t : Fin cfg0.N) :
    (⟨grid0.coords t, iblk (F := Ideal) m c 0 t, iblk (F := Ideal) m c 1 t, iblk (F := Ideal) m c 2 t, iblk (F := Ideal) m c 3 t⟩ : Pt Ideal)
      = ptsOf (V (F := Ideal) m c main_v0) (V (F := Ideal) m c main_v1) (V (F := Ideal) m c main_v2) t.val := by
  have hN : t.val < 128 := lt_of_lt_of_eq t.isLt (show cfg0.N = 128 from N_0)
  have h0 : (iblk (F := Ideal) m c 0 t : Vec Ideal S1024x512 .bf16) = rowTile (V (F := Ideal) m c main_v0) (t.val / 16) :=
    funext fun y => iblk0_apply m c t y
  have h1 : (iblk (F := Ideal) m c 1 t : Vec Ideal S1024x512 .bf16) = rowTile (V (F := Ideal) m c main_v0) (t.val % 8) :=
    funext fun y => iblk1_apply m c t y
  have h2 : (iblk (F := Ideal) m c 2 t : Vec Ideal S1024x1 .i32) = colTileOfColumn (V (F := Ideal) m c main_v1) (t.val / 16) :=
    funext fun y => iblk2_apply m c t y
  have h3 : (iblk (F := Ideal) m c 3 t : Vec Ideal S1x1024 .i32) = rowTileOfRow (V (F := Ideal) m c main_v2) (t.val % 8) :=
    funext fun y => iblk3_apply m c t y
  have hc : grid0.coords t = coordsOf t.val := (coordsOf_of_lt t.val hN).symm
  show _ = (⟨coordsOf t.val, rowTile _ (t.val / 16), rowTile _ (t.val % 8), colTileOfColumn _ (t.val / 16), rowTileOfRow _ (t.val % 8)⟩ : Pt Ideal)
  rw [h0, h1, h2, h3, hc]

end Cert.KernelIdeal.Tile

end
-- ==== Proof.TileFinal.lean ====
/- The two result arrays are, row by row, what each row tile's last point left. -/
import proofs.«180551_j55817394979145_1_alg».proof.Proof.TileBlocks
import Idealize.ShloMosaic.Lib.Pipeline.Value

set_option maxRecDepth 16384

noncomputable section

namespace Cert.KernelIdeal.Tile

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3_0).slice (win0_4.rect t)).set ↔ _
  rw [View.set_slice_whole, Rect.mem_set_unit]
  exact Iff.rfl

theorem arr4_final {c : Dev nD} (dat : Dat τ (Elt Ideal) Unit ℕ (UR sig nD τ) ℕ cfg0 c)
    (O : Fin cfg0.N → Vec Ideal S1024x1 .f32) (hafter : ∀ t, dat.after 4 t = O t)
    (r : Fin 8192) (tt : Fin cfg0.N) (htt : tt.val = 16 * (r.val / 1024) + 15) :
    (dat.arrAt 4 cfg0.N : S8192x1.Idx → EReal) (ix2 r (0 : Fin 1))
      = O tt (ix2 (⟨r.val % 1024, Nat.mod_lt _ (by decide)⟩ : Fin 1024) (0 : Fin 1)) := by
  have key := dat.arrAt_forall_of_cover 4
    (P := fun i v => ∀ (s : Fin cfg0.N), s.val = 16 * ((i 0).val / 1024) + 15 →
      v = O s (ix2 (⟨(i 0).val % 1024, Nat.mod_lt _ (by decide)⟩ : Fin 1024) (0 : Fin 1)))
    (fun t hf y s hs => by
      have hq : t.val % 16 = 15 := (flush0_4 t).mp hf
      have hy0 : (y 0).val < 1024 := idx2_lt0 y
      have hy1 : (y 1).val < 1 := idx2_lt1 y
      have he0 : ((((cfg0.win 4).blk t).view.emb y) 0).val = win0_4.index t (0 : Fin 2) * 1024 + 1 * (y 0).val := rfl
      rw [(index0_4 t).1] at he0
      have hst : s = t := Fin.ext (by rw [hs, he0]; omega)
      subst hst
      show (cfg0.win 4).cut (grid0.coords s) (dat.after 4 s) y = _
      rw [hafter]
      show O s y = _
      refine congrArg (O s) ?_
      funext a
      match a with
      | ⟨0, _⟩ => exact Fin.ext (by show (y 0).val = ((((cfg0.win 4).blk s).view.emb y) 0).val % 1024; rw [he0]; omega)
      | ⟨1, _⟩ => exact Fin.ext (by show (y 1).val = 0; omega))
    (fun i => by
      have hi0 : (i 0).val < 8192 := idx2_lt0 i
      have hi1 : (i 1).val < 1 := idx2_lt1 i
      refine ⟨⟨16 * ((i 0).val / 1024) + 15, by rw [show cfg0.N = 128 from N_0]; omega⟩, (flush0_4 _).mpr (by show (16 * ((i 0).val / 1024) + 15) % 16 = 15; omega), ?_⟩
      rw [mem_blk4]
      intro a
      match a with
      | ⟨0, _⟩ =>
        show win0_4.index _ (0 : Fin 2) * 1024 ≤ (i 0).val ∧ (i 0).val < win0_4.index _ (0 : Fin 2) * 1024 + 1024
        rw [(index0_4 _).1]; show (16 * ((i 0).val / 1024) + 15) / 16 * 1024 ≤ (i 0).val ∧ (i 0).val < (16 * ((i 0).val / 1024) + 15) / 16 * 1024 + 1024; omega
      | ⟨1, _⟩ =>
        show win0_4.index _ (1 : Fin 2) * 1 ≤ (i 1).val ∧ (i 1).val < win0_4.index _ (1 : Fin 2) * 1 + 1
        rw [(index0_4 _).2]; omega)
    (ix2 r (0 : Fin 1))
  exact key tt htt

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v3_1).slice (win0_5.rect t)).set ↔ _
  rw [View.set_slice_whole, Rect.mem_set_unit]
  exact Iff.rfl

theorem arr5_final {c : Dev nD} (dat : Dat τ (Elt Ideal) Unit ℕ (UR sig nD τ) ℕ cfg0 c)
    (O : Fin cfg0.N → Vec Ideal S1024x1 .f32) (hafter : ∀ t, dat.after 5 t = O t)
    (r : Fin 8192) (tt : Fin cfg0.N) (htt : tt.val = 16 * (r.val / 1024) + 15) :
    (dat.arrAt 5 cfg0.N : S8192x1.Idx → EReal) (ix2 r (0 : Fin 1))
      = O tt (ix2 (⟨r.val % 1024, Nat.mod_lt _ (by decide)⟩ : Fin 1024) (0 : Fin 1)) := by
  have key := dat.arrAt_forall_of_cover 5
    (P := fun i v => ∀ (s : Fin cfg0.N), s.val = 16 * ((i 0).val / 1024) + 15 →
      v = O s (ix2 (⟨(i 0).val % 1024, Nat.mod_lt _ (by decide)⟩ : Fin 1024) (0 : Fin 1)))
    (fun t hf y s hs => by
      have hq : t.val % 16 = 15 := (flush0_5 t).mp hf
      have hy0 : (y 0).val < 1024 := idx2_lt0 y
      have hy1 : (y 1).val < 1 := idx2_lt1 y
      have he0 : ((((cfg0.win 5).blk t).view.emb y) 0).val = win0_5.index t (0 : Fin 2) * 1024 + 1 * (y 0).val := rfl
      rw [(index0_5 t).1] at he0
      have hst : s = t := Fin.ext (by rw [hs, he0]; omega)
      subst hst
      show (cfg0.win 5).cut (grid0.coords s) (dat.after 5 s) y = _
      rw [hafter]
      show O s y = _
      refine congrArg (O s) ?_
      funext a
      match a with
      | ⟨0, _⟩ => exact Fin.ext (by show (y 0).val = ((((cfg0.win 5).blk s).view.emb y) 0).val % 1024; rw [he0]; omega)
      | ⟨1, _⟩ => exact Fin.ext (by show (y 1).val = 0; omega))
    (fun i => by
      have hi0 : (i 0).val < 8192 := idx2_lt0 i
      have hi1 : (i 1).val < 1 := idx2_lt1 i
      refine ⟨⟨16 * ((i 0).val / 1024) + 15, by rw [show cfg0.N = 128 from N_0]; omega⟩, (flush0_5 _).mpr (by show (16 * ((i 0).val / 1024) + 15) % 16 = 15; omega), ?_⟩
      rw [mem_blk5]
      intro a
      match a with
      | ⟨0, _⟩ =>
        show win0_5.index _ (0 : Fin 2) * 1024 ≤ (i 0).val ∧ (i 0).val < win0_5.index _ (0 : Fin 2) * 1024 + 1024
        rw [(index0_5 _).1]; show (16 * ((i 0).val / 1024) + 15) / 16 * 1024 ≤ (i 0).val ∧ (i 0).val < (16 * ((i 0).val / 1024) + 15) / 16 * 1024 + 1024; omega
      | ⟨1, _⟩ =>
        show win0_5.index _ (1 : Fin 2) * 1 ≤ (i 1).val ∧ (i 1).val < win0_5.index _ (1 : Fin 2) * 1 + 1
        rw [(index0_5 _).2]; omega)
    (ix2 r (0 : Fin 1))
  exact key tt htt

end Cert.KernelIdeal.Tile

end
-- ==== Proof.LibMatmulRows.lean ====
/- A product contracted on the second axis of both factors, accumulated into zero, is entry by entry a sum over k. -/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.TileRead.lean ====
/- A tile's similarities and masks read at an index. -/
import proofs.«180551_j55817394979145_1_alg».proof.Proof.TileSteps
import proofs.«180551_j55817394979145_1_alg».proof.Proof.LibMatmulRows
import Idealize.ShloMosaic.PureOps.Ideal.Laws
import Idealize.ShloMosaic.Lib.Pipeline.Value
import Idealize.ShloMosaic.Lib.ValueLayout

noncomputable section

open scoped BigOperators

namespace Cert.KernelIdeal.Tile.Read

open Idealize.ShloMosaic Idealize.ShloMosaic.ValueIdx Cert.KernelIdeal Cert.KernelIdeal.Gen

theorem column_along_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem simDims_eq :
    dot_S1024x512_S1024x512_S1024x1024_1_1_0_0_n_n = DotDims.transposedRhs 1024 512 1024 := rfl

theorem andi_xori_one_eq_one_iff (a b : BitVec 1) :
    IntOp.andi a (IntOp.xori b 1#1) = 1#1 ↔ (a = 1#1 ∧ ¬ b = 1#1) := by
  rcases BitVec.eq_zero_or_eq_one a with h | h <;> rcases BitVec.eq_zero_or_eq_one b with h' | h' <;>
    subst h <;> subst h' <;> decide

theorem xori_one_eq_one_iff (b : BitVec 1) : IntOp.xori b 1#1 = 1#1 ↔ ¬ b = 1#1 := by
  rcases BitVec.eq_zero_or_eq_one b with h | h <;> subst h <;> decide

theorem cmpi_eq_eq_one_iff (x y : BitVec 32) : IntOp.cmpi .eq x y = 1#1 ↔ x = y := by
  show BitVec.ofBool (x == y) = 1#1 ↔ x = y
  by_cases h : x = y
  · have hb : (x == y) = true := by rw [h]; exact beq_self_eq_true y
    rw [hb]; exact ⟨fun _ => h, fun _ => rfl⟩
  · have hb : (x == y) = false := by
      cases hb : (x == y)
      · rfl
      · exact absurd (eq_of_beq hb) h
    rw [hb]; exact ⟨fun e => absurd e (by decide), fun e => absurd e h⟩

theorem globalIndexWord_eq_iff (t t' r r' : ℕ) (ht : t < 8) (ht' : t' < 8) (hr : r < 1024) (hr' : r' < 1024) :
    IntOp.addi (Scalar.muli (BitVec.ofNat 32 t) 1024#32) (BitVec.ofNat 32 r)
        = IntOp.addi (Scalar.muli (BitVec.ofNat 32 t') 1024#32) (BitVec.ofNat 32 r')
      ↔ 1024 * t + r = 1024 * t' + r' := by
  unfold IntOp.addi Scalar.muli IntOp.muli
  rw [← BitVec.toNat_inj]
  simp only [BitVec.toNat_add, BitVec.toNat_mul, BitVec.toNat_ofNat]
  omega

theorem sim_apply (er ec : Vec Ideal S1024x512 .bf16) (p q : Fin 1024) :
    k0_pay17 (F := Ideal) er ec (ix2 p q) = ∑ k : Fin 512, er (ix2 p k) * ec (ix2 q k) := by
  unfold k0_pay17
  show FloatOps.matmul (F := Ideal) dot_S1024x512_S1024x512_S1024x1024_1_1_0_0_n_n none
      (shapeCast S1024x512 er Facts₀.shapeCasts_S1024x512_S1024x512)
      (shapeCast S1024x512 ec Facts₀.shapeCasts_S1024x512_S1024x512)
      (constant S1024x1024 .f32 0x00000000#32) (ix2 p q) = _
  rw [shapeCast_self, shapeCast_self, simDims_eq]
  exact MatmulRows.matmul_zero_apply none er ec p q

theorem same_word (lr : Vec Ideal S1024x1 .i32) (lc : Vec Ideal S1x1024 .i32) (p q : Fin 1024) :
    k0_pay14 (F := Ideal) lr lc (ix2 p q) = IntOp.cmpi .eq (lr (ix2 p (0 : Fin 1))) (lc (ix2 (0 : Fin 1) q)) := by
  unfold k0_pay14
  show IntOp.cmpi .eq
      (broadcastTo S1024x1024 (shapeCast S1024x1 lr Facts₀.shapeCasts_S1024x1_S1024x1)
        Facts₀.broadcasts_S1024x1_S1024x1024 (ix2 p q))
      (broadcastTo S1024x1024 (shapeCast S1x1024 lc Facts₀.shapeCasts_S1x1024_S1x1024)
        Facts₀.broadcasts_S1x1024_S1024x1024 (ix2 p q)) = _
  rw [shapeCast_self, shapeCast_self, column_along_apply, broadcastTo_1b_ab_apply]

theorem same_apply (lr : Vec Ideal S1024x1 .i32) (lc : Vec Ideal S1x1024 .i32) (p q : Fin 1024) :
    k0_pay14 (F := Ideal) lr lc (ix2 p q) = 1#1 ↔ lr (ix2 p (0 : Fin 1)) = lc (ix2 (0 : Fin 1) q) := by
  rw [same_word]
  exact cmpi_eq_eq_one_iff _ _

theorem posM_word (i : grid0.Coords) (lr : Vec Ideal S1024x1 .i32) (lc : Vec Ideal S1x1024 .i32) (p q : Fin 1024) :
    k0_pay15 (F := Ideal) i lr lc (ix2 p q)
      = IntOp.andi (k0_pay14 (F := Ideal) lr lc (ix2 p q))
          (IntOp.xori
            (IntOp.cmpi .eq
              (IntOp.addi (Scalar.muli (BitVec.ofNat 32 (i 0).val) 1024#32) (BitVec.ofNat 32 p.val))
              (IntOp.addi (Scalar.muli (BitVec.ofNat 32 (i 2).val) 1024#32) (BitVec.ofNat 32 q.val)))
            1#1) := by
  unfold k0_pay15
  show IntOp.andi (k0_pay14 (F := Ideal) lr lc (ix2 p q))
      (IntOp.xori
        (IntOp.cmpi .eq
          (broadcastTo S1024x1024
            (addi (broadcast S1024x1 (Scalar.muli (BitVec.ofNat 32 (i 0).val) 1024#32))
              (iota .tc S1024x1 32 [0] Facts₀.iota_S1024x1_d0_w32))
            Facts₀.broadcasts_S1024x1_S1024x1024 (ix2 p q))
          (broadcastTo S1024x1024
            (addi (broadcast S1x1024 (Scalar.muli (BitVec.ofNat 32 (i 2).val) 1024#32))
              (iota .tc S1x1024 32 [1] Facts₀.iota_S1x1024_d1_w32))
            Facts₀.broadcasts_S1x1024_S1024x1024 (ix2 p q)))
        1#1) = _
  rw [column_along_apply, broadcastTo_1b_ab_apply]
  show IntOp.andi _ (IntOp.xori (IntOp.cmpi .eq
      (IntOp.addi (Scalar.muli (BitVec.ofNat 32 (i 0).val) 1024#32)
        (iota .tc S1024x1 32 [0] Facts₀.iota_S1024x1_d0_w32 (ix2 p (0 : Fin 1))))
      (IntOp.addi (Scalar.muli (BitVec.ofNat 32 (i 2).val) 1024#32)
        (iota .tc S1x1024 32 [1] Facts₀.iota_S1x1024_d1_w32 (ix2 (0 : Fin 1) q)))) 1#1) = _
  rw [iota_single_apply, iota_single_apply]

theorem posM_apply (i : grid0.Coords) (lr : Vec Ideal S1024x1 .i32) (lc : Vec Ideal S1x1024 .i32) (p q : Fin 1024) :
    k0_pay15 (F := Ideal) i lr lc (ix2 p q) = 1#1 ↔
      (lr (ix2 p (0 : Fin 1)) = lc (ix2 (0 : Fin 1) q) ∧ 1024 * (i 0).val + p.val ≠ 1024 * (i 2).val + q.val) := by
  have h0 : (i 0).val < 8 := (i 0).isLt
  have h2 : (i 2).val < 8 := (i 2).isLt
  rw [posM_word, andi_xori_one_eq_one_iff, same_apply, cmpi_eq_eq_one_iff,
    globalIndexWord_eq_iff _ _ _ _ h0 h2 p.isLt q.isLt]

theorem negM_apply (lr : Vec Ideal S1024x1 .i32) (lc : Vec Ideal S1x1024 .i32) (p q : Fin 1024) :
    k0_pay16 (F := Ideal) lr lc (ix2 p q) = 1#1 ↔ lr (ix2 p (0 : Fin 1)) ≠ lc (ix2 (0 : Fin 1) q) := by
  unfold k0_pay16
  show IntOp.xori (k0_pay14 (F := Ideal) lr lc (ix2 p q)) 1#1 = 1#1 ↔ _
  rw [xori_one_eq_one_iff, same_apply]

end Cert.KernelIdeal.Tile.Read

end
-- ==== Proof.TileThr.lean ====
/- The first phase: folding max from -10^9 (min from 10^9) over eight column tiles gives the row's threshold. -/
import proofs.«180551_j55817394979145_1_alg».proof.Proof.TileArrays
import proofs.«180551_j55817394979145_1_alg».proof.Proof.TileRead
import proofs.«180551_j55817394979145_1_alg».proof.Proof.TripletSpec
import Idealize.ShloMosaic.PureOps.Ideal.Laws
import Idealize.ShloMosaic.Lib.Pipeline.Value
import Idealize.ShloMosaic.Lib.ValueIdx

noncomputable section

open scoped BigOperators

namespace Cert.KernelIdeal.Tile.Thr

open Idealize.ShloMosaic Idealize.ShloMosaic.ValueIdx Idealize.ShloMosaic.Pipeline Cert.KernelIdeal Cert.KernelIdeal.Gen

theorem ofBits_negInf : Ideal.ofBits .f32 0xFF800000#32 = (⊥ : EReal) := by
  simp [Ideal.ofBits, Ideal.ieee]

theorem ofBits_posInf : Ideal.ofBits .f32 0x7F800000#32 = (⊤ : EReal) := by
  simp [Ideal.ofBits, Ideal.ieee]

theorem fold_max_bot {ι : Type} (s : Finset ι) (f : ι → EReal) : s.fold max ⊥ f = s.sup f := by
  classical
  induction s using Finset.induction_on with
  | empty => simp
  | insert a s ha ih => rw [Finset.fold_insert ha, Finset.sup_insert, ih]

theorem fold_min_top {ι : Type} (s : Finset ι) (f : ι → EReal) : s.fold min ⊤ f = s.inf f := by
  classical
  induction s using Finset.induction_on with
  | empty => simp
  | insert a s ha ih => rw [Finset.fold_insert ha, Finset.inf_insert, ih]

theorem lane_index (p q : Fin 1024) : reduces_S1024x1024_S1024.lift (ix1 p) q = ix2 p q := by
  funext a
  match a with
  | ⟨0, _⟩ => exact Fin.ext rfl
  | ⟨1, _⟩ => exact Fin.ext rfl

theorem lanes_as_column_apply (v : FVec Ideal S1024 .f32) (p : Fin 1024) :
    shapeCast S1024x1 v shapeCasts_S1024_S1024x1 (ix2 p (0 : Fin 1)) = v (ix1 p) :=
  shapeCast_apply v _ _ _ (by
    rw [Shape.rowMajor_val_one, Shape.rowMajor_val_two]
    show p.val = p.val * 1 + 0
    omega)

theorem rowMax_apply (v : FVec Ideal S1024x1024 .f32) (p : Fin 1024) :
    shapeCast S1024x1 (multiReduction (F := Ideal) .maximumf [1] S1024 v 0xFF800000#32 reduces_S1024x1024_S1024 (.inl rfl) rfl)
        shapeCasts_S1024_S1024x1 (ix2 p (0 : Fin 1))
      = Finset.univ.sup fun q : Fin 1024 => v (ix2 p q) := by
  rw [lanes_as_column_apply]
  refine (Ideal.multiReduction_maximumf_single v _ reduces_S1024x1024_S1024 _ _ (ix1 p)).trans ?_
  refine (congrArg (fun b : EReal => (Finset.univ : Finset (Fin 1024)).fold max b (v ∘ reduces_S1024x1024_S1024.lift (ix1 p))) ofBits_negInf).trans ?_
  refine (fold_max_bot _ _).trans ?_
  refine Finset.sup_congr rfl fun q _ => ?_
  exact congrArg v (lane_index p q)

theorem rowMin_apply (v : FVec Ideal S1024x1024 .f32) (p : Fin 1024) :
    shapeCast S1024x1 (multiReduction (F := Ideal) .minimumf [1] S1024 v 0x7F800000#32 reduces_S1024x1024_S1024 (.inl rfl) rfl)
        shapeCasts_S1024_S1024x1 (ix2 p (0 : Fin 1))
      = Finset.univ.inf fun q : Fin 1024 => v (ix2 p q) := by
  rw [lanes_as_column_apply]
  refine (multiReduction_minimumf_eq_fold v _ reduces_S1024x1024_S1024 _ _ (ix1 p)).trans ?_
  refine (reduces_S1024x1024_S1024.fold_filter_drop_single _ _ v (ix1 p)).trans ?_
  refine (congrArg (fun b : EReal => (Finset.univ : Finset (Fin 1024)).fold min b (v ∘ reduces_S1024x1024_S1024.lift (ix1 p))) ofBits_posInf).trans ?_
  refine (fold_min_top _ _).trans ?_
  refine Finset.inf_congr rfl fun q _ => ?_
  exact congrArg v (lane_index p q)

theorem posThr_point_apply (i : grid0.Coords) (lr : Vec Ideal S1024x1 .i32) (lc : Vec Ideal S1x1024 .i32)
    (er ec : Vec Ideal S1024x512 .bf16) (s : Vec Ideal S1024x1 .f32) (p : Fin 1024) :
    k0_pay20 (F := Ideal) i lr lc er ec s (ix2 p (0 : Fin 1))
      = max (s (ix2 p (0 : Fin 1)))
          (Finset.univ.sup fun q : Fin 1024 =>
            if k0_pay15 (F := Ideal) i lr lc (ix2 p q) = 1#1 then k0_pay17 (F := Ideal) er ec (ix2 p q)
            else TripletSpec.negBig) := by
  unfold k0_pay20
  dsimp only
  rw [shapeCast_self, maximumf_apply, rowMax_apply]
  rfl

theorem negThr_point_apply (lr : Vec Ideal S1024x1 .i32) (lc : Vec Ideal S1x1024 .i32)
    (er ec : Vec Ideal S1024x512 .bf16) (s : Vec Ideal S1024x1 .f32) (p : Fin 1024) :
    k0_pay21 (F := Ideal) lr lc er ec s (ix2 p (0 : Fin 1))
      = min (s (ix2 p (0 : Fin 1)))
          (Finset.univ.inf fun q : Fin 1024 =>
            if k0_pay16 (F := Ideal) lr lc (ix2 p q) = 1#1 then k0_pay17 (F := Ideal) er ec (ix2 p q)
            else TripletSpec.posBig) := by
  unfold k0_pay21
  dsimp only
  rw [shapeCast_self, minimumf_apply, rowMin_apply]
  rfl

theorem posThr_start_apply (p : Fin 1024) : k0_pay18 (F := Ideal) (ix2 p (0 : Fin 1)) = TripletSpec.negBig := by
  unfold k0_pay18
  rw [shapeCast_self]
  rfl

theorem negThr_start_apply (p : Fin 1024) : k0_pay19 (F := Ideal) (ix2 p (0 : Fin 1)) = TripletSpec.posBig := by
  unfold k0_pay19
  rw [shapeCast_self]
  rfl

theorem rowTile_apply (E : Vec Ideal S8192x512 .bf16) (a : ℕ) (ha : a < 8) (p : Fin 1024) (k : Fin 512) :
    rowTile E a (ix2 p k) = E (ix2 (⟨1024 * a + p.val, by have := p.isLt; omega⟩ : Fin 8192) k) := by
  unfold rowTile
  exact congrArg (fun r : Fin 8192 => E (ix2 r k)) (Fin.ext (by show 1024 * (a % 8) + p.val = 1024 * a + p.val; omega))

theorem colTile_apply (Lc : Vec Ideal S8192x1 .i32) (a : ℕ) (ha : a < 8) (p : Fin 1024) :
    colTileOfColumn Lc a (ix2 p (0 : Fin 1)) = Lc (ix2 (⟨1024 * a + p.val, by have := p.isLt; omega⟩ : Fin 8192) (0 : Fin 1)) := by
  unfold colTileOfColumn
  exact congrArg (fun r : Fin 8192 => Lc (ix2 r (0 : Fin 1))) (Fin.ext (by show 1024 * (a % 8) + p.val = 1024 * a + p.val; omega))

theorem rowOfRow_apply (Lr : Vec Ideal S1x8192 .i32) (a : ℕ) (ha : a < 8) (q : Fin 1024) :
    rowTileOfRow Lr a (ix2 (0 : Fin 1) q) = Lr (ix2 (0 : Fin 1) (⟨1024 * a + q.val, by have := q.isLt; omega⟩ : Fin 8192)) := by
  unfold rowTileOfRow
  exact congrArg (fun c : Fin 8192 => Lr (ix2 (0 : Fin 1) c)) (Fin.ext (by show 1024 * (a % 8) + q.val = 1024 * a + q.val; omega))

section Running

variable (f : Fin 8192 → EReal)

theorem sup_below_zero : (Finset.univ.filter fun c : Fin 8192 => c.val < 1024 * 0).sup f = ⊥ := by
  simp

theorem sup_below_all : (Finset.univ.filter fun c : Fin 8192 => c.val < 1024 * (7 + 1)).sup f = Finset.univ.sup f := by
  have h : (Finset.univ.filter fun c : Fin 8192 => c.val < 1024 * (7 + 1)) = Finset.univ :=
    Finset.filter_true_of_mem fun c _ => by have := c.isLt; omega
  rw [h]

theorem sup_below_step (j : ℕ) (hj : j < 8) :
    (Finset.univ.filter fun c : Fin 8192 => c.val < 1024 * (j + 1)).sup f
      = max ((Finset.univ.filter fun c : Fin 8192 => c.val < 1024 * j).sup f)
          (Finset.univ.sup fun q : Fin 1024 => f (⟨1024 * j + q.val, by have := q.isLt; omega⟩ : Fin 8192)) := by
  apply le_antisymm
  · refine Finset.sup_le fun c hc => ?_
    have hc' : c.val < 1024 * (j + 1) := (Finset.mem_filter.1 hc).2
    by_cases h : c.val < 1024 * j
    · exact le_max_of_le_left (Finset.le_sup (f := f) (Finset.mem_filter.2 ⟨Finset.mem_univ _, h⟩))
    · refine le_max_of_le_right ?_
      have hq : c.val - 1024 * j < 1024 := by omega
      have e : f c = f (⟨1024 * j + (⟨c.val - 1024 * j, hq⟩ : Fin 1024).val, by show 1024 * j + (c.val - 1024 * j) < 8192; omega⟩ : Fin 8192) :=
        congrArg f (Fin.ext (by show c.val = 1024 * j + (c.val - 1024 * j); omega))
      rw [e]
      exact Finset.le_sup (f := fun q : Fin 1024 => f (⟨1024 * j + q.val, by have := q.isLt; omega⟩ : Fin 8192))
        (Finset.mem_univ (⟨c.val - 1024 * j, hq⟩ : Fin 1024))
  · refine max_le (Finset.sup_mono fun c hc => ?_) (Finset.sup_le fun q _ => ?_)
    · have hc' : c.val < 1024 * j := (Finset.mem_filter.1 hc).2
      exact Finset.mem_filter.2 ⟨Finset.mem_univ _, by omega⟩
    · exact Finset.le_sup (f := f) (Finset.mem_filter.2 ⟨Finset.mem_univ _, by have := q.isLt; show 1024 * j + q.val < 1024 * (j + 1); omega⟩)

theorem inf_below_zero : (Finset.univ.filter fun c : Fin 8192 => c.val < 1024 * 0).inf f = ⊤ := by
  simp

theorem inf_below_all : (Finset.univ.filter fun c : Fin 8192 => c.val < 1024 * (7 + 1)).inf f = Finset.univ.inf f := by
  have h : (Finset.univ.filter fun c : Fin 8192 => c.val < 1024 * (7 + 1)) = Finset.univ :=
    Finset.filter_true_of_mem fun c _ => by have := c.isLt; omega
  rw [h]

theorem inf_below_step (j : ℕ) (hj : j < 8) :
    (Finset.univ.filter fun c : Fin 8192 => c.val < 1024 * (j + 1)).inf f
      = min ((Finset.univ.filter fun c : Fin 8192 => c.val < 1024 * j).inf f)
          (Finset.univ.inf fun q : Fin 1024 => f (⟨1024 * j + q.val, by have := q.isLt; omega⟩ : Fin 8192)) := by
  apply le_antisymm
  · refine le_min (Finset.inf_mono fun c hc => ?_) (Finset.le_inf fun q _ => ?_)
    · have hc' : c.val < 1024 * j := (Finset.mem_filter.1 hc).2
      exact Finset.mem_filter.2 ⟨Finset.mem_univ _, by omega⟩
    · exact Finset.inf_le (f := f) (Finset.mem_filter.2 ⟨Finset.mem_univ _, by have := q.isLt; show 1024 * j + q.val < 1024 * (j + 1); omega⟩)
  · refine Finset.le_inf fun c hc => ?_
    have hc' : c.val < 1024 * (j + 1) := (Finset.mem_filter.1 hc).2
    by_cases h : c.val < 1024 * j
    · exact min_le_of_left_le (Finset.inf_le (f := f) (Finset.mem_filter.2 ⟨Finset.mem_univ _, h⟩))
    · refine min_le_of_right_le ?_
      have hq : c.val - 1024 * j < 1024 := by omega
      have e : f c = f (⟨1024 * j + (⟨c.val - 1024 * j, hq⟩ : Fin 1024).val, by show 1024 * j + (c.val - 1024 * j) < 8192; omega⟩ : Fin 8192) :=
        congrArg f (Fin.ext (by show c.val = 1024 * j + (c.val - 1024 * j); omega))
      rw [e]
      exact Finset.inf_le (f := fun q : Fin 1024 => f (⟨1024 * j + q.val, by have := q.isLt; omega⟩ : Fin 8192))
        (Finset.mem_univ (⟨c.val - 1024 * j, hq⟩ : Fin 1024))

end Running

section Tiles

variable (E : Vec Ideal S8192x512 .bf16) (Lc : Vec Ideal S8192x1 .i32) (Lr : Vec Ideal S1x8192 .i32)

theorem sim_tile (i j : ℕ) (hi : i < 8) (hj : j < 8) (p q : Fin 1024) :
    k0_pay17 (F := Ideal) (rowTile E i) (rowTile E j) (ix2 p q)
      = TripletSpec.sim (rows E) (⟨1024 * i + p.val, by have := p.isLt; omega⟩ : Fin 8192)
          (⟨1024 * j + q.val, by have := q.isLt; omega⟩ : Fin 8192) := by
  rw [Read.sim_apply]
  unfold TripletSpec.sim
  refine Finset.sum_congr rfl fun k _ => ?_
  rw [rowTile_apply E i hi, rowTile_apply E j hj]

theorem posM_tile (hL : ∀ r : Fin 8192, Lr (ix2 (0 : Fin 1) r) = Lc (ix2 r (0 : Fin 1)))
    (c : grid0.Coords) (i j : ℕ) (hi : i < 8) (hj : j < 8) (h0 : (c 0).val = i) (h2 : (c 2).val = j) (p q : Fin 1024) :
    k0_pay15 (F := Ideal) c (colTileOfColumn Lc i) (rowTileOfRow Lr j) (ix2 p q) = 1#1
      ↔ TripletSpec.pos (labs Lc) (⟨1024 * i + p.val, by have := p.isLt; omega⟩ : Fin 8192)
          (⟨1024 * j + q.val, by have := q.isLt; omega⟩ : Fin 8192) := by
  rw [Read.posM_apply, colTile_apply Lc i hi, rowOfRow_apply Lr j hj, hL, h0, h2]
  exact and_congr Iff.rfl (not_congr ⟨fun h => Fin.ext h, fun h => congrArg Fin.val h⟩)

theorem negM_tile (hL : ∀ r : Fin 8192, Lr (ix2 (0 : Fin 1) r) = Lc (ix2 r (0 : Fin 1)))
    (i j : ℕ) (hi : i < 8) (hj : j < 8) (p q : Fin 1024) :
    k0_pay16 (F := Ideal) (colTileOfColumn Lc i) (rowTileOfRow Lr j) (ix2 p q) = 1#1
      ↔ TripletSpec.neg (labs Lc) (⟨1024 * i + p.val, by have := p.isLt; omega⟩ : Fin 8192)
          (⟨1024 * j + q.val, by have := q.isLt; omega⟩ : Fin 8192) := by
  rw [Read.negM_apply, colTile_apply Lc i hi, rowOfRow_apply Lr j hj, hL]
  exact Iff.rfl

end Tiles

section Points

variable {F : FTy → Type} [FloatOps F] (B : ℕ → Pt F)

theorem scrAt_tile_first (i : ℕ) : ∃ s : Scr F, scrAt B (16 * i) = stepThr (B (16 * i)) (resetThr s) := by
  cases i with
  | zero => exact ⟨Scr.any, rfl⟩
  | succ k =>
    refine ⟨scrAt B (16 * k + 15), ?_⟩
    show scrAt B ((16 * k + 15) + 1) = _
    rw [scrAt_succ]
    have h : (16 * k + 15 + 1) % 16 = 0 := by omega
    rw [h]
    rfl

theorem scrAt_thr_next (i j : ℕ) (hj : j + 1 < 8) :
    scrAt B (16 * i + (j + 1)) = stepThr (B (16 * i + (j + 1))) (scrAt B (16 * i + j)) := by
  show scrAt B ((16 * i + j) + 1) = _
  rw [scrAt_succ]
  have h : (16 * i + j + 1) % 16 = j + 1 := by omega
  rw [h]
  unfold stepAt
  rw [if_neg (by omega), if_pos hj]
  rfl

theorem stepAt_acc_keeps (q : ℕ) (hq : 8 ≤ q) (P : Pt F) (s : Scr F) :
    (stepAt q P s).s0 = s.s0 ∧ (stepAt q P s).s1 = s.s1 := by
  unfold stepAt
  rw [if_neg (by omega), if_neg (by omega)]
  split
  · exact ⟨rfl, rfl⟩
  · exact ⟨rfl, rfl⟩

theorem scrAt_acc_keeps (i j : ℕ) (hj : j < 8) :
    (scrAt B (16 * i + 8 + j)).s0 = (scrAt B (16 * i + 7)).s0 ∧ (scrAt B (16 * i + 8 + j)).s1 = (scrAt B (16 * i + 7)).s1 := by
  induction j with
  | zero =>
    have e : 16 * i + 8 + 0 = (16 * i + 7) + 1 := by omega
    rw [e, scrAt_succ]
    exact stepAt_acc_keeps _ (by omega) _ _
  | succ k ih =>
    have ih' := ih (by omega)
    have e : 16 * i + 8 + (k + 1) = (16 * i + 8 + k) + 1 := by omega
    rw [e, scrAt_succ]
    have h := stepAt_acc_keeps ((16 * i + 8 + k + 1) % 16) (by omega) (B (16 * i + 8 + k + 1)) (scrAt B (16 * i + 8 + k))
    exact ⟨h.1.trans ih'.1, h.2.trans ih'.2⟩

end Points

def posOffer (e : Fin 8192 → Fin 512 → EReal) (l : Fin 8192 → BitVec 32) (r c : Fin 8192) : EReal :=
  if TripletSpec.pos l r c then TripletSpec.sim e r c else TripletSpec.negBig

def negOffer (e : Fin 8192 → Fin 512 → EReal) (l : Fin 8192 → BitVec 32) (r c : Fin 8192) : EReal :=
  if TripletSpec.neg l r c then TripletSpec.sim e r c else TripletSpec.posBig

section Thresholds

variable (E : Vec Ideal S8192x512 .bf16) (Lc : Vec Ideal S8192x1 .i32) (Lr : Vec Ideal S1x8192 .i32)
  (hL : ∀ r : Fin 8192, Lr (ix2 (0 : Fin 1) r) = Lc (ix2 r (0 : Fin 1)))

include hL

theorem stepThr_posThr (n i j : ℕ) (hi : i < 8) (hj : j < 8) (hn : n = 16 * i + j) (s : Scr Ideal) (p : Fin 1024) :
    (stepThr (ptsOf E Lc Lr n) s).s0 (ix2 p (0 : Fin 1))
      = max (s.s0 (ix2 p (0 : Fin 1)))
          (Finset.univ.sup fun q : Fin 1024 =>
            posOffer (rows E) (labs Lc) (⟨1024 * i + p.val, by have := p.isLt; omega⟩ : Fin 8192)
              (⟨1024 * j + q.val, by have := q.isLt; omega⟩ : Fin 8192)) := by
  subst hn
  have e1 : (16 * i + j) / 16 = i := by omega
  have e2 : (16 * i + j) % 8 = j := by omega
  show k0_pay20 (F := Ideal) (coordsOf (16 * i + j)) (colTileOfColumn Lc ((16 * i + j) / 16))
      (rowTileOfRow Lr ((16 * i + j) % 8)) (rowTile E ((16 * i + j) / 16)) (rowTile E ((16 * i + j) % 8)) s.s0
      (ix2 p (0 : Fin 1)) = _
  rw [e1, e2, posThr_point_apply]
  refine congrArg (max _) (Finset.sup_congr rfl fun q _ => ?_)
  unfold posOffer
  rw [sim_tile E i j hi hj]
  exact if_congr (posM_tile Lc Lr hL (coordsOf (16 * i + j)) i j hi hj ((coordsOf_row _ (by omega)).trans e1)
    ((coordsOf_col _ (by omega)).trans e2) p q) rfl rfl

theorem stepThr_negThr (n i j : ℕ) (hi : i < 8) (hj : j < 8) (hn : n = 16 * i + j) (s : Scr Ideal) (p : Fin 1024) :
    (stepThr (ptsOf E Lc Lr n) s).s1 (ix2 p (0 : Fin 1))
      = min (s.s1 (ix2 p (0 : Fin 1)))
          (Finset.univ.inf fun q : Fin 1024 =>
            negOffer (rows E) (labs Lc) (⟨1024 * i + p.val, by have := p.isLt; omega⟩ : Fin 8192)
              (⟨1024 * j + q.val, by have := q.isLt; omega⟩ : Fin 8192)) := by
  subst hn
  have e1 : (16 * i + j) / 16 = i := by omega
  have e2 : (16 * i + j) % 8 = j := by omega
  show k0_pay21 (F := Ideal) (colTileOfColumn Lc ((16 * i + j) / 16))
      (rowTileOfRow Lr ((16 * i + j) % 8)) (rowTile E ((16 * i + j) / 16)) (rowTile E ((16 * i + j) % 8)) s.s1
      (ix2 p (0 : Fin 1)) = _
  rw [e1, e2, negThr_point_apply]
  refine congrArg (min _) (Finset.inf_congr rfl fun q _ => ?_)
  unfold negOffer
  rw [sim_tile E i j hi hj]
  exact if_congr (negM_tile Lc Lr hL i j hi hj p q) rfl rfl

theorem thr_prefix (i j : ℕ) (hi : i < 8) (hj : j < 8) (p : Fin 1024) :
    (scrAt (ptsOf E Lc Lr) (16 * i + j)).s0 (ix2 p (0 : Fin 1))
        = max TripletSpec.negBig
            ((Finset.univ.filter fun c : Fin 8192 => c.val < 1024 * (j + 1)).sup
              (posOffer (rows E) (labs Lc) (⟨1024 * i + p.val, by have := p.isLt; omega⟩ : Fin 8192)))
    ∧ (scrAt (ptsOf E Lc Lr) (16 * i + j)).s1 (ix2 p (0 : Fin 1))
        = min TripletSpec.posBig
            ((Finset.univ.filter fun c : Fin 8192 => c.val < 1024 * (j + 1)).inf
              (negOffer (rows E) (labs Lc) (⟨1024 * i + p.val, by have := p.isLt; omega⟩ : Fin 8192))) := by
  induction j with
  | zero =>
    obtain ⟨s, hs⟩ := scrAt_tile_first (ptsOf E Lc Lr) i
    have e : 16 * i + 0 = 16 * i := rfl
    rw [e, hs, stepThr_posThr E Lc Lr hL (16 * i) i 0 hi (by omega) rfl, stepThr_negThr E Lc Lr hL (16 * i) i 0 hi (by omega) rfl,
      sup_below_step _ 0 (by omega), sup_below_zero, max_bot_left, inf_below_step _ 0 (by omega), inf_below_zero, min_top_left]
    exact ⟨congrArg (fun x => max x _) (posThr_start_apply p), congrArg (fun x => min x _) (negThr_start_apply p)⟩
  | succ k ih =>
    have ih' := ih (by omega)
    rw [scrAt_thr_next _ i k hj, stepThr_posThr E Lc Lr hL (16 * i + (k + 1)) i (k + 1) hi hj rfl,
      stepThr_negThr E Lc Lr hL (16 * i + (k + 1)) i (k + 1) hi hj rfl, ih'.1, ih'.2,
      sup_below_step _ (k + 1) hj, inf_below_step _ (k + 1) hj, max_assoc, min_assoc]
    exact ⟨rfl, rfl⟩

theorem thr_maxPos (i : Fin 8) (p : Fin 1024) :
    (scrAt (ptsOf E Lc Lr) (16 * i.val + 7)).s0 (ix2 p (0 : Fin 1))
      = TripletSpec.maxPos (rows E) (labs Lc) (⟨1024 * i.val + p.val, by have := i.isLt; have := p.isLt; omega⟩ : Fin 8192) := by
  rw [(thr_prefix E Lc Lr hL i.val 7 i.isLt (by omega) p).1, sup_below_all]
  exact max_eq_right (TripletSpec.negBig_le_maxPos _ _ _)

theorem thr_minNeg (i : Fin 8) (p : Fin 1024) :
    (scrAt (ptsOf E Lc Lr) (16 * i.val + 7)).s1 (ix2 p (0 : Fin 1))
      = TripletSpec.minNeg (rows E) (labs Lc) (⟨1024 * i.val + p.val, by have := i.isLt; have := p.isLt; omega⟩ : Fin 8192) := by
  rw [(thr_prefix E Lc Lr hL i.val 7 i.isLt (by omega) p).2, inf_below_all]
  exact min_eq_right (TripletSpec.minNeg_le_posBig _ _ _)

omit hL

theorem thr_kept (i : Fin 8) (j : ℕ) (hj : j < 8) :
    (scrAt (ptsOf E Lc Lr) (16 * i.val + 8 + j)).s0 = (scrAt (ptsOf E Lc Lr) (16 * i.val + 7)).s0
      ∧ (scrAt (ptsOf E Lc Lr) (16 * i.val + 8 + j)).s1 = (scrAt (ptsOf E Lc Lr) (16 * i.val + 7)).s1 :=
  scrAt_acc_keeps (ptsOf E Lc Lr) i.val j hj

end Thresholds

end Cert.KernelIdeal.Tile.Thr

end
-- ==== Proof.LibBlockSum.lean ====
/- A sum over a * b indices is the sum over a blocks of b. -/
import Mathlib.Algebra.BigOperators.Fin
import Mathlib.Algebra.BigOperators.Intervals

open scoped BigOperators

namespace BlockSum

variable {M : Type*} [AddCommMonoid M]

theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.TileAcc.lean ====
/- The second phase: each accumulator after a column tile is the one before plus the tile's selected sum; after eight tiles, the row's sums. -/
import proofs.«180551_j55817394979145_1_alg».proof.Proof.TileArrays
import proofs.«180551_j55817394979145_1_alg».proof.Proof.TileRead
import proofs.«180551_j55817394979145_1_alg».proof.Proof.TripletSpec
import proofs.«180551_j55817394979145_1_alg».proof.Proof.LibBlockSum
import Idealize.ShloMosaic.Lib.Pipeline.Value
import Idealize.ShloMosaic.PureOps.Ideal.Laws

noncomputable section

open scoped BigOperators

namespace Cert.KernelIdeal.Tile.Acc

open Idealize.ShloMosaic Idealize.ShloMosaic.ValueIdx Idealize.ShloMosaic.Pipeline Cert.KernelIdeal Cert.KernelIdeal.Gen

section Layout
variable {α : Type}

theorem column_of_vector_apply (v : S1024.Idx → α) (h : S1024.ShapeCasts S1024x1) (p : Fin 1024) (u : Fin 1) :
    shapeCast S1024x1 v h (ix2 p u) = v (ix1 p) :=
  shapeCast_apply v h _ _ (by
    rw [Shape.rowMajor_val_one, Shape.rowMajor_val_two]
    show p.val = p.val * 1 + u.val
    omega)

theorem column_along_lanes_apply (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

end Layout

theorem lane_sum_apply (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src ?_
  funext c
  match c with
  | ⟨0, _⟩ => rfl
  | ⟨1, _⟩ => rfl

theorem accumulate_apply (acc : Vec Ideal S1024x1 .f32) (src : FVec Ideal S1024x1024 .f32)
    (h1 : S1024x1.ShapeCasts S1024x1) (h2 : S1024.ShapeCasts S1024x1) (h : S1024x1024.Reduces [1] S1024)
    (hφ : FKind.Formats .f32) (hacc : (0x00000000#32 : BitVec 32) = FKind.add.neutral .f32 hφ) (p : Fin 1024) :
    shapeCast S1024x1 (addf acc (shapeCast S1024x1 (multiReduction .add [1] S1024 src 0x00000000#32 h hφ hacc) h2)) h1
        (ix2 p (0 : Fin 1))
      = acc (ix2 p (0 : Fin 1)) + ∑ q : Fin 1024, src (ix2 p q) := by
  rw [shapeCast_self]
  show acc (ix2 p (0 : Fin 1)) + shapeCast S1024x1 _ h2 (ix2 p (0 : Fin 1)) = _
  rw [column_of_vector_apply, lane_sum_apply]

theorem and_bit_iff (b : BitVec 1) (P : Prop) [Decidable P] :
    IntOp.andi b (BitVec.ofBool (decide P)) = 1#1 ↔ (b = 1#1 ∧ P) := by
  rcases BitVec.eq_zero_or_eq_one b with hb | hb <;> subst hb <;> by_cases hP : P <;> simp [IntOp.andi, hP]

theorem select_decided {α : Type} (P : Prop) [Decidable P] (a b : α) :
    Scalar.select (BitVec.ofBool (decide P)) a b = if P then a else b := by
  by_cases hP : P <;> simp [Scalar.select, hP]

theorem bit_as_count (b : BitVec 1) : (((b.setWidth 32).toInt : ℝ) : EReal) = if b = 1#1 then 1 else 0 := by
  rcases BitVec.eq_zero_or_eq_one b with hb | hb <;> subst hb
  · have e : ((0#1 : BitVec 1).setWidth 32).toInt = 0 := by decide
    rw [e]; simp
  · have e : ((1#1 : BitVec 1).setWidth 32).toInt = 1 := by decide
    rw [e]; simp

section Payloads
variable (posM negM nsel : IVec S1024x1024 1) (sim : FVec Ideal S1024x1024 .f32) (s0 s1 acc : Vec Ideal S1024x1 .f32)
  (p q : Fin 1024)

theorem posBit_iff : k0_pay10 (F := Ideal) posM sim s1 (ix2 p q) = 1#1 ↔
    (posM (ix2 p q) = 1#1 ∧ s1 (ix2 p (0 : Fin 1)) < sim (ix2 p q)) := by
  unfold k0_pay10
  show IntOp.andi (posM (ix2 p q)) (BitVec.ofBool (decide (broadcastTo S1024x1024 s1 _ (ix2 p q) < sim (ix2 p q)))) = 1#1 ↔ _
  rw [column_along_lanes_apply]
  exact and_bit_iff _ _

theorem negBit_iff : k0_pay9 (F := Ideal) negM sim s0 (ix2 p q) = 1#1 ↔
    (negM (ix2 p q) = 1#1 ∧ sim (ix2 p q) < s0 (ix2 p (0 : Fin 1))) := by
  unfold k0_pay9
  show IntOp.andi (negM (ix2 p q)) (BitVec.ofBool (decide (sim (ix2 p q) < broadcastTo S1024x1024 s0 _ (ix2 p q)))) = 1#1 ↔ _
  rw [column_along_lanes_apply]
  exact and_bit_iff _ _

theorem posSum_step : k0_pay11 (F := Ideal) posM sim s1 acc (ix2 p (0 : Fin 1))
    = acc (ix2 p (0 : Fin 1)) + ∑ q : Fin 1024,
        (if k0_pay10 (F := Ideal) posM sim s1 (ix2 p q) = 1#1 then TripletSpec.one - sim (ix2 p q) else 0) := by
  unfold k0_pay11
  refine (accumulate_apply acc _ _ _ _ _ _ p).trans (congrArg (acc (ix2 p (0 : Fin 1)) + ·) (Finset.sum_congr rfl fun q _ => ?_))
  show (if k0_pay10 (F := Ideal) posM sim s1 (ix2 p q) = 1 then TripletSpec.one - sim (ix2 p q) else Ideal.ofBits .f32 0x00000000#32) = _
  rw [Ideal.ofBits_zero_f32]; rfl

theorem posCnt_step : k0_pay12 (F := Ideal) posM sim s1 acc (ix2 p (0 : Fin 1))
    = acc (ix2 p (0 : Fin 1)) + ∑ q : Fin 1024, (if k0_pay10 (F := Ideal) posM sim s1 (ix2 p q) = 1#1 then 1 else 0) := by
  unfold k0_pay12
  refine (accumulate_apply acc _ _ _ _ _ _ p).trans (congrArg (acc (ix2 p (0 : Fin 1)) + ·) (Finset.sum_congr rfl fun q _ => ?_))
  exact bit_as_count _

theorem negCnt_step : k0_pay13 (F := Ideal) negM sim s0 acc (ix2 p (0 : Fin 1))
    = acc (ix2 p (0 : Fin 1)) + ∑ q : Fin 1024, (if k0_pay9 (F := Ideal) negM sim s0 (ix2 p q) = 1#1 then 1 else 0) := by
  unfold k0_pay13
  refine (accumulate_apply acc _ _ _ _ _ _ p).trans (congrArg (acc (ix2 p (0 : Fin 1)) + ·) (Finset.sum_congr rfl fun q _ => ?_))
  exact bit_as_count _

theorem expSum_step : k0_pay6 (F := Ideal) sim nsel acc (ix2 p (0 : Fin 1))
    = acc (ix2 p (0 : Fin 1)) + ∑ q : Fin 1024,
        (if nsel (ix2 p q) = 1#1 then Ideal.exp (TripletSpec.forty * (sim (ix2 p q) - TripletSpec.half)) else 0) := by
  unfold k0_pay6
  refine (accumulate_apply acc _ _ _ _ _ _ p).trans (congrArg (acc (ix2 p (0 : Fin 1)) + ·) (Finset.sum_congr rfl fun q _ => ?_))
  show (if nsel (ix2 p q) = 1 then Ideal.exp (TripletSpec.forty * (sim (ix2 p q) - TripletSpec.half)) else Ideal.ofBits .f32 0x00000000#32) = _
  rw [Ideal.ofBits_zero_f32]; rfl

theorem negSum_step : k0_pay7 (F := Ideal) sim nsel acc (ix2 p (0 : Fin 1))
    = acc (ix2 p (0 : Fin 1)) + ∑ q : Fin 1024, (if nsel (ix2 p q) = 1#1 then sim (ix2 p q) else 0) := by
  unfold k0_pay7
  refine (accumulate_apply acc _ _ _ _ _ _ p).trans (congrArg (acc (ix2 p (0 : Fin 1)) + ·) (Finset.sum_congr rfl fun q _ => ?_))
  show (if nsel (ix2 p q) = 1 then sim (ix2 p q) else Ideal.ofBits .f32 0x00000000#32) = _
  rw [Ideal.ofBits_zero_f32]; rfl

theorem loss_of_accumulators (c3 c4 a2 a6 a5 : Vec Ideal S1024x1 .f32) :
    k0_pay8 (F := Ideal) c3 c4 a2 a6 a5 (ix2 p (0 : Fin 1))
      = (if 0 < c3 (ix2 p (0 : Fin 1))
          then Ideal.div (a2 (ix2 p (0 : Fin 1))) (max (c3 (ix2 p (0 : Fin 1))) TripletSpec.one) else 0)
        + (if 0 < c4 (ix2 p (0 : Fin 1))
            then TripletSpec.inv20 * Ideal.log1p (a5 (ix2 p (0 : Fin 1)))
              + Ideal.div (a6 (ix2 p (0 : Fin 1))) (max (c4 (ix2 p (0 : Fin 1))) TripletSpec.one) else 0) := by
  unfold k0_pay8
  show Scalar.select (BitVec.ofBool (decide (Ideal.ofBits .f32 0x00000000#32 < c3 (ix2 p (0 : Fin 1)))))
        (Ideal.div (a2 (ix2 p (0 : Fin 1))) (max (c3 (ix2 p (0 : Fin 1))) TripletSpec.one)) (Ideal.ofBits .f32 0x00000000#32)
      + Scalar.select (BitVec.ofBool (decide (Ideal.ofBits .f32 0x00000000#32 < c4 (ix2 p (0 : Fin 1)))))
        (TripletSpec.inv20 * Ideal.log1p (a5 (ix2 p (0 : Fin 1)))
          + Ideal.div (a6 (ix2 p (0 : Fin 1))) (max (c4 (ix2 p (0 : Fin 1))) TripletSpec.one)) (Ideal.ofBits .f32 0x00000000#32) = _
  rw [select_decided, select_decided, Ideal.ofBits_zero_f32]

end Payloads

theorem sum_ones_eq_cnt {ι : Type} (s : Finset ι) (P : ι → Prop) [DecidablePred P] :
    ∑ c ∈ s, (if P c then (1 : EReal) else 0) = TripletSpec.cnt (s.filter P).card := by
  classical
  induction s using Finset.induction_on with
  | empty => simp
  | insert a s ha ih =>
    rw [Finset.sum_insert ha, ih, Finset.filter_insert]
    by_cases hP : P a
    · rw [if_pos hP, if_pos hP, Finset.card_insert_of_notMem (fun h => ha (Finset.mem_filter.mp h).1)]
      show (1 : EReal) + ((_ : ℝ) : EReal) = ((_ : ℝ) : EReal)
      rw [Nat.cast_succ, EReal.coe_add, add_comm]; rfl
    · rw [if_neg hP, if_neg hP, zero_add]

theorem cnt_pos_iff (n : ℕ) : (0 : EReal) < TripletSpec.cnt n ↔ 0 < n := by
  show (0 : EReal) < ((n : ℝ) : EReal) ↔ _
  rw [EReal.coe_pos, Nat.cast_pos]

def rowOf (a : ℕ) (p : Fin 1024) : Fin 8192 := ⟨1024 * (a % 8) + p.val, by have := p.isLt; omega⟩

theorem sum_of_eight_tiles (g : Fin 8192 → EReal) (a : ℕ → EReal) (b : ℕ) (hb : b % 16 = 8)
    (hstep : ∀ n, b ≤ n + 1 → n + 1 ≤ b + 7 →
      a (n + 1) = (if (n + 1) % 16 = 8 then 0 else a n) + ∑ x : Fin 1024, g (rowOf ((n + 1) % 8) x)) :
    a (b + 7) = ∑ c : Fin 8192, g c := by
  obtain ⟨b', rfl⟩ : ∃ b', b = b' + 1 := ⟨b - 1, by omega⟩
  have key : ∀ j, j ≤ 7 → a (b' + 1 + j) = ∑ t ∈ Finset.range (j + 1), ∑ x : Fin 1024, g (rowOf t x) := by
    intro j
    induction j with
    | zero =>
      intro _
      rw [Nat.add_zero, hstep b' (le_refl _) (by omega), if_pos hb, zero_add, Finset.sum_range_one,
        show (b' + 1) % 8 = 0 by omega]
    | succ j ih =>
      intro hj
      rw [show b' + 1 + (j + 1) = (b' + 1 + j) + 1 from rfl, hstep (b' + 1 + j) (by omega) (by omega),
        if_neg (by omega), ih (by omega), Finset.sum_range_succ _ (j + 1),
        show (b' + 1 + j + 1) % 8 = j + 1 by omega]
  rw [key 7 (le_refl _)]
  have h := BlockSum.sum_fin_mul (fun c => if h : c < 8192 then g ⟨c, h⟩ else 0) 8 1024
  have hl : ∑ c : Fin 8192, g c = ∑ i : Fin (8 * 1024), (fun c => if h : c < 8192 then g ⟨c, h⟩ else 0) i.val :=
    Finset.sum_congr rfl fun c _ => by
      show g c = if h : c.val < 8192 then g ⟨c.val, h⟩ else 0
      rw [dif_pos c.isLt]
  rw [hl, h]
  refine Finset.sum_congr rfl fun t ht => Finset.sum_congr rfl fun x _ => ?_
  have ht' : t < 8 := Finset.mem_range.mp ht
  have hx := x.isLt
  show g (rowOf t x) = if h : 1024 * t + x.val < 8192 then g ⟨1024 * t + x.val, h⟩ else 0
  rw [dif_pos (by omega)]
  exact congrArg g (Fin.ext (by show 1024 * (t % 8) + x.val = 1024 * t + x.val; rw [Nat.mod_eq_of_lt ht']))

structure Reads (e : Fin 8192 → Fin 512 → EReal) (l : Fin 8192 → BitVec 32) (P : Pt Ideal) (p : Fin 1024)
    (rr : Fin 8192) (cc : Fin 1024 → Fin 8192) : Prop where
  er : ∀ k : Fin 512, P.er (ix2 p k) = e rr k
  ec : ∀ (q : Fin 1024) (k : Fin 512), P.ec (ix2 q k) = e (cc q) k
  lr : P.lr (ix2 p (0 : Fin 1)) = l rr
  lc : ∀ q : Fin 1024, P.lc (ix2 (0 : Fin 1) q) = l (cc q)
  diag : ∀ q : Fin 1024, 1024 * (P.i 0).val + p.val = 1024 * (P.i 2).val + q.val ↔ rr = cc q

section Tile
variable {e : Fin 8192 → Fin 512 → EReal} {l : Fin 8192 → BitVec 32} {P : Pt Ideal} {p : Fin 1024} {rr : Fin 8192}
  {cc : Fin 1024 → Fin 8192}

theorem tile_sim (R : Reads e l P p rr cc) (q : Fin 1024) :
    k0_pay17 (F := Ideal) P.er P.ec (ix2 p q) = TripletSpec.sim e rr (cc q) := by
  rw [Read.sim_apply]
  unfold TripletSpec.sim
  exact Finset.sum_congr rfl fun k _ => by rw [R.er k, R.ec q k]

theorem tile_pos (R : Reads e l P p rr cc) (q : Fin 1024) :
    k0_pay15 (F := Ideal) P.i P.lr P.lc (ix2 p q) = 1#1 ↔ TripletSpec.pos l rr (cc q) := by
  rw [Read.posM_apply, R.lr, R.lc q]
  unfold TripletSpec.pos
  exact and_congr_right' (not_congr (R.diag q))

theorem tile_neg (R : Reads e l P p rr cc) (q : Fin 1024) :
    k0_pay16 (F := Ideal) P.lr P.lc (ix2 p q) = 1#1 ↔ TripletSpec.neg l rr (cc q) := by
  rw [Read.negM_apply, R.lr, R.lc q]
  rfl

theorem tile_posSel (R : Reads e l P p rr cc) (s1 : Vec Ideal S1024x1 .f32)
    (hs1 : s1 (ix2 p (0 : Fin 1)) = TripletSpec.minNeg e l rr) (q : Fin 1024) :
    k0_pay10 (F := Ideal) (k0_pay15 P.i P.lr P.lc) (k0_pay17 P.er P.ec) s1 (ix2 p q) = 1#1
      ↔ TripletSpec.posSel e l rr (cc q) := by
  rw [posBit_iff, tile_pos R q, tile_sim R q, hs1]
  rfl

theorem tile_negSel (R : Reads e l P p rr cc) (s0 : Vec Ideal S1024x1 .f32)
    (hs0 : s0 (ix2 p (0 : Fin 1)) = TripletSpec.maxPos e l rr) (q : Fin 1024) :
    k0_pay9 (F := Ideal) (k0_pay16 P.lr P.lc) (k0_pay17 P.er P.ec) s0 (ix2 p q) = 1#1
      ↔ TripletSpec.negSel e l rr (cc q) := by
  rw [negBit_iff, tile_neg R q, tile_sim R q, hs0]
  rfl

variable (s : Scr Ideal)

theorem stepAcc_posSum (R : Reads e l P p rr cc) (hs1 : s.s1 (ix2 p (0 : Fin 1)) = TripletSpec.minNeg e l rr) :
    (stepAcc P s).s2 (ix2 p (0 : Fin 1)) = s.s2 (ix2 p (0 : Fin 1))
      + ∑ q : Fin 1024, (if TripletSpec.posSel e l rr (cc q) then TripletSpec.one - TripletSpec.sim e rr (cc q) else 0) :=
  (posSum_step _ _ _ _ p).trans (congrArg (s.s2 (ix2 p (0 : Fin 1)) + ·) (Finset.sum_congr rfl fun q _ =>
    if_congr (tile_posSel R s.s1 hs1 q) (by rw [tile_sim R q]) rfl))

theorem stepAcc_posCnt (R : Reads e l P p rr cc) (hs1 : s.s1 (ix2 p (0 : Fin 1)) = TripletSpec.minNeg e l rr) :
    (stepAcc P s).s3 (ix2 p (0 : Fin 1)) = s.s3 (ix2 p (0 : Fin 1))
      + ∑ q : Fin 1024, (if TripletSpec.posSel e l rr (cc q) then 1 else 0) :=
  (posCnt_step _ _ _ _ p).trans (congrArg (s.s3 (ix2 p (0 : Fin 1)) + ·) (Finset.sum_congr rfl fun q _ =>
    if_congr (tile_posSel R s.s1 hs1 q) rfl rfl))

theorem stepAcc_negCnt (R : Reads e l P p rr cc) (hs0 : s.s0 (ix2 p (0 : Fin 1)) = TripletSpec.maxPos e l rr) :
    (stepAcc P s).s4 (ix2 p (0 : Fin 1)) = s.s4 (ix2 p (0 : Fin 1))
      + ∑ q : Fin 1024, (if TripletSpec.negSel e l rr (cc q) then 1 else 0) :=
  (negCnt_step _ _ _ _ p).trans (congrArg (s.s4 (ix2 p (0 : Fin 1)) + ·) (Finset.sum_congr rfl fun q _ =>
    if_congr (tile_negSel R s.s0 hs0 q) rfl rfl))

theorem stepAcc_expSum (R : Reads e l P p rr cc) (hs0 : s.s0 (ix2 p (0 : Fin 1)) = TripletSpec.maxPos e l rr) :
    (stepAcc P s).s5 (ix2 p (0 : Fin 1)) = s.s5 (ix2 p (0 : Fin 1))
      + ∑ q : Fin 1024, (if TripletSpec.negSel e l rr (cc q)
          then Ideal.exp (TripletSpec.forty * (TripletSpec.sim e rr (cc q) - TripletSpec.half)) else 0) :=
  (expSum_step _ _ _ p).trans (congrArg (s.s5 (ix2 p (0 : Fin 1)) + ·) (Finset.sum_congr rfl fun q _ =>
    if_congr (tile_negSel R s.s0 hs0 q) (by rw [tile_sim R q]) rfl))

theorem stepAcc_negSum (R : Reads e l P p rr cc) (hs0 : s.s0 (ix2 p (0 : Fin 1)) = TripletSpec.maxPos e l rr) :
    (stepAcc P s).s6 (ix2 p (0 : Fin 1)) = s.s6 (ix2 p (0 : Fin 1))
      + ∑ q : Fin 1024, (if TripletSpec.negSel e l rr (cc q) then TripletSpec.sim e rr (cc q) else 0) :=
  (negSum_step _ _ _ p).trans (congrArg (s.s6 (ix2 p (0 : Fin 1)) + ·) (Finset.sum_congr rfl fun q _ =>
    if_congr (tile_negSel R s.s0 hs0 q) (by rw [tile_sim R q]) rfl))

end Tile

theorem reads_ptsOf (E : Vec Ideal S8192x512 .bf16) (Lc : Vec Ideal S8192x1 .i32) (Lr : Vec Ideal S1x8192 .i32)
    (hL : ∀ r : Fin 8192, Lr (ix2 (0 : Fin 1) r) = Lc (ix2 r (0 : Fin 1))) (n : ℕ) (hn : n < 128) (p : Fin 1024) :
    Reads (rows E) (labs Lc) (ptsOf E Lc Lr n) p (rowOf (n / 16) p) (rowOf (n % 8)) where
  er := fun _ => rfl
  ec := fun _ _ => rfl
  lr := rfl
  lc := fun q => hL (rowOf (n % 8) q)
  diag := fun q => by
    show 1024 * (coordsOf n 0).val + p.val = 1024 * (coordsOf n 2).val + q.val ↔ _
    rw [coordsOf_row n hn, coordsOf_col n hn]
    have hp := p.isLt
    have hq := q.isLt
    constructor
    · intro h
      exact Fin.ext (by show 1024 * (n / 16 % 8) + p.val = 1024 * (n % 8 % 8) + q.val; omega)
    · intro h
      have h' : 1024 * (n / 16 % 8) + p.val = 1024 * (n % 8 % 8) + q.val := congrArg Fin.val h
      omega

theorem scrAt_acc_phase (B : ℕ → Pt Ideal) (n : ℕ) (h8 : 8 ≤ (n + 1) % 16) :
    scrAt B (n + 1) = stepAcc (B (n + 1)) (if (n + 1) % 16 = 8 then resetAcc (scrAt B n) else scrAt B n) := by
  rw [scrAt_succ]
  unfold stepAt
  rw [if_neg (by omega), if_neg (by omega)]
  by_cases h : (n + 1) % 16 = 8
  · rw [if_pos h, if_pos h]
  · rw [if_neg h, if_neg h]

theorem zero_column (h : S1024x1.ShapeCasts S1024x1) (j : S1024x1.Idx) :
    shapeCast S1024x1 (broadcast S1024x1 (Scalar.ofBits (F := Ideal) .f32 0x00000000#32)) h j = 0 := by
  rw [shapeCast_self]
  exact Ideal.ofBits_zero_f32

section Start
variable (c : Prop) [Decidable c] (s : Scr Ideal) (j : S1024x1.Idx)

theorem start_s0 : (if c then resetAcc s else s).s0 = s.s0 := by
  by_cases h : c
  · rw [if_pos h]; rfl
  · rw [if_neg h]
theorem start_s1 : (if c then resetAcc s else s).s1 = s.s1 := by
  by_cases h : c
  · rw [if_pos h]; rfl
  · rw [if_neg h]

theorem start_s2 : (if c then resetAcc s else s).s2 j = if c then 0 else s.s2 j := by
  by_cases h : c
  · rw [if_pos h, if_pos h]; exact zero_column shapeCasts_S1024x1_S1024x1 j
  · rw [if_neg h, if_neg h]
theorem start_s3 : (if c then resetAcc s else s).s3 j = if c then 0 else s.s3 j := by
  by_cases h : c
  · rw [if_pos h, if_pos h]; exact zero_column shapeCasts_S1024x1_S1024x1 j
  · rw [if_neg h, if_neg h]
theorem start_s4 : (if c then resetAcc s else s).s4 j = if c then 0 else s.s4 j := by
  by_cases h : c
  · rw [if_pos h, if_pos h]; exact zero_column shapeCasts_S1024x1_S1024x1 j
  · rw [if_neg h, if_neg h]
theorem start_s5 : (if c then resetAcc s else s).s5 j = if c then 0 else s.s5 j := by
  by_cases h : c
  · rw [if_pos h, if_pos h]; exact zero_column shapeCasts_S1024x1_S1024x1 j
  · rw [if_neg h, if_neg h]
theorem start_s6 : (if c then resetAcc s else s).s6 j = if c then 0 else s.s6 j := by
  by_cases h : c
  · rw [if_pos h, if_pos h]; exact zero_column shapeCasts_S1024x1_S1024x1 j
  · rw [if_neg h, if_neg h]

end Start

theorem rowOf_of_tile (i : Fin 8) (a : ℕ) (ha : a = i.val) (p : Fin 1024) :
    rowOf a p = (⟨1024 * i.val + p.val, by omega⟩ : Fin 8192) :=
  Fin.ext (by show 1024 * (a % 8) + p.val = 1024 * i.val + p.val; rw [ha, Nat.mod_eq_of_lt i.isLt])

section RowTile
variable {E : Vec Ideal S8192x512 .bf16} {Lc : Vec Ideal S8192x1 .i32} {Lr : Vec Ideal S1x8192 .i32}
  (hL : ∀ r : Fin 8192, Lr (ix2 (0 : Fin 1) r) = Lc (ix2 r (0 : Fin 1))) (i : Fin 8)
  (h0 : ∀ n : ℕ, 16 * i.val + 7 ≤ n → n ≤ 16 * i.val + 15 → ∀ p : Fin 1024,
    (scrAt (ptsOf E Lc Lr) n).s0 (ix2 p (0 : Fin 1))
      = TripletSpec.maxPos (rows E) (labs Lc) (⟨1024 * i.val + p.val, by omega⟩ : Fin 8192))
  (h1 : ∀ n : ℕ, 16 * i.val + 7 ≤ n → n ≤ 16 * i.val + 15 → ∀ p : Fin 1024,
    (scrAt (ptsOf E Lc Lr) n).s1 (ix2 p (0 : Fin 1))
      = TripletSpec.minNeg (rows E) (labs Lc) (⟨1024 * i.val + p.val, by omega⟩ : Fin 8192))
  (p : Fin 1024)

include hL in

theorem reads_of_tile (n : ℕ) (hlo : 16 * i.val + 7 ≤ n) (hhi : n ≤ 16 * i.val + 14) :
    Reads (rows E) (labs Lc) (ptsOf E Lc Lr (n + 1)) p (⟨1024 * i.val + p.val, by omega⟩ : Fin 8192)
      (rowOf ((n + 1) % 8)) := by
  have hi := i.isLt
  have R := reads_ptsOf E Lc Lr hL (n + 1) (by omega) p
  rw [rowOf_of_tile i ((n + 1) / 16) (by omega) p] at R
  exact R

include hL h1 in
theorem posSum_point (n : ℕ) (hlo : 16 * i.val + 7 ≤ n) (hhi : n ≤ 16 * i.val + 14) :
    (scrAt (ptsOf E Lc Lr) (n + 1)).s2 (ix2 p (0 : Fin 1))
      = (if (n + 1) % 16 = 8 then 0 else (scrAt (ptsOf E Lc Lr) n).s2 (ix2 p (0 : Fin 1)))
        + ∑ x : Fin 1024,
          (if TripletSpec.posSel (rows E) (labs Lc) (⟨1024 * i.val + p.val, by omega⟩ : Fin 8192) (rowOf ((n + 1) % 8) x)
            then TripletSpec.one
              - TripletSpec.sim (rows E) (⟨1024 * i.val + p.val, by omega⟩ : Fin 8192) (rowOf ((n + 1) % 8) x)
            else 0) := by
  rw [scrAt_acc_phase _ n (by omega),
    stepAcc_posSum _ (reads_of_tile hL i p n hlo hhi) (by rw [start_s1]; exact h1 n hlo (by omega) p), start_s2]

include hL h1 in
theorem posCnt_point (n : ℕ) (hlo : 16 * i.val + 7 ≤ n) (hhi : n ≤ 16 * i.val + 14) :
    (scrAt (ptsOf E Lc Lr) (n + 1)).s3 (ix2 p (0 : Fin 1))
      = (if (n + 1) % 16 = 8 then 0 else (scrAt (ptsOf E Lc Lr) n).s3 (ix2 p (0 : Fin 1)))
        + ∑ x : Fin 1024,
          (if TripletSpec.posSel (rows E) (labs Lc) (⟨1024 * i.val + p.val, by omega⟩ : Fin 8192) (rowOf ((n + 1) % 8) x)
            then 1 else 0) := by
  rw [scrAt_acc_phase _ n (by omega),
    stepAcc_posCnt _ (reads_of_tile hL i p n hlo hhi) (by rw [start_s1]; exact h1 n hlo (by omega) p), start_s3]

include hL h0 in
theorem negCnt_point (n : ℕ) (hlo : 16 * i.val + 7 ≤ n) (hhi : n ≤ 16 * i.val + 14) :
    (scrAt (ptsOf E Lc Lr) (n + 1)).s4 (ix2 p (0 : Fin 1))
      = (if (n + 1) % 16 = 8 then 0 else (scrAt (ptsOf E Lc Lr) n).s4 (ix2 p (0 : Fin 1)))
        + ∑ x : Fin 1024,
          (if TripletSpec.negSel (rows E) (labs Lc) (⟨1024 * i.val + p.val, by omega⟩ : Fin 8192) (rowOf ((n + 1) % 8) x)
            then 1 else 0) := by
  rw [scrAt_acc_phase _ n (by omega),
    stepAcc_negCnt _ (reads_of_tile hL i p n hlo hhi) (by rw [start_s0]; exact h0 n hlo (by omega) p), start_s4]

include hL h0 in
theorem expSum_point (n : ℕ) (hlo : 16 * i.val + 7 ≤ n) (hhi : n ≤ 16 * i.val + 14) :
    (scrAt (ptsOf E Lc Lr) (n + 1)).s5 (ix2 p (0 : Fin 1))
      = (if (n + 1) % 16 = 8 then 0 else (scrAt (ptsOf E Lc Lr) n).s5 (ix2 p (0 : Fin 1)))
        + ∑ x : Fin 1024,
          (if TripletSpec.negSel (rows E) (labs Lc) (⟨1024 * i.val + p.val, by omega⟩ : Fin 8192) (rowOf ((n + 1) % 8) x)
            then Ideal.exp (TripletSpec.forty
              * (TripletSpec.sim (rows E) (⟨1024 * i.val + p.val, by omega⟩ : Fin 8192) (rowOf ((n + 1) % 8) x)
                - TripletSpec.half))
            else 0) := by
  rw [scrAt_acc_phase _ n (by omega),
    stepAcc_expSum _ (reads_of_tile hL i p n hlo hhi) (by rw [start_s0]; exact h0 n hlo (by omega) p), start_s5]

include hL h0 in
theorem negSum_point (n : ℕ) (hlo : 16 * i.val + 7 ≤ n) (hhi : n ≤ 16 * i.val + 14) :
    (scrAt (ptsOf E Lc Lr) (n + 1)).s6 (ix2 p (0 : Fin 1))
      = (if (n + 1) % 16 = 8 then 0 else (scrAt (ptsOf E Lc Lr) n).s6 (ix2 p (0 : Fin 1)))
        + ∑ x : Fin 1024,
          (if TripletSpec.negSel (rows E) (labs Lc) (⟨1024 * i.val + p.val, by omega⟩ : Fin 8192) (rowOf ((n + 1) % 8) x)
            then TripletSpec.sim (rows E) (⟨1024 * i.val + p.val, by omega⟩ : Fin 8192) (rowOf ((n + 1) % 8) x)
            else 0) := by
  rw [scrAt_acc_phase _ n (by omega),
    stepAcc_negSum _ (reads_of_tile hL i p n hlo hhi) (by rw [start_s0]; exact h0 n hlo (by omega) p), start_s6]

include hL h1 in
theorem total_posSum : (scrAt (ptsOf E Lc Lr) (16 * i.val + 15)).s2 (ix2 p (0 : Fin 1))
    = TripletSpec.posSum (rows E) (labs Lc) (⟨1024 * i.val + p.val, by omega⟩ : Fin 8192) :=
  sum_of_eight_tiles
    (fun c => if TripletSpec.posSel (rows E) (labs Lc) (⟨1024 * i.val + p.val, by omega⟩ : Fin 8192) c
      then TripletSpec.one - TripletSpec.sim (rows E) (⟨1024 * i.val + p.val, by omega⟩ : Fin 8192) c else 0)
    (fun n => (scrAt (ptsOf E Lc Lr) n).s2 (ix2 p (0 : Fin 1))) (16 * i.val + 8) (by omega)
    (fun n hlo hhi => posSum_point hL i h1 p n (by omega) (by omega))

include hL h1 in
theorem total_posCnt : (scrAt (ptsOf E Lc Lr) (16 * i.val + 15)).s3 (ix2 p (0 : Fin 1))
    = TripletSpec.cnt (TripletSpec.posCnt (rows E) (labs Lc) (⟨1024 * i.val + p.val, by omega⟩ : Fin 8192)) :=
  (sum_of_eight_tiles
    (fun c => if TripletSpec.posSel (rows E) (labs Lc) (⟨1024 * i.val + p.val, by omega⟩ : Fin 8192) c then 1 else 0)
    (fun n => (scrAt (ptsOf E Lc Lr) n).s3 (ix2 p (0 : Fin 1))) (16 * i.val + 8) (by omega)
    (fun n hlo hhi => posCnt_point hL i h1 p n (by omega) (by omega))).trans
  (sum_ones_eq_cnt Finset.univ _)

include hL h0 in
theorem total_negCnt : (scrAt (ptsOf E Lc Lr) (16 * i.val + 15)).s4 (ix2 p (0 : Fin 1))
    = TripletSpec.cnt (TripletSpec.negCnt (rows E) (labs Lc) (⟨1024 * i.val + p.val, by omega⟩ : Fin 8192)) :=
  (sum_of_eight_tiles
    (fun c => if TripletSpec.negSel (rows E) (labs Lc) (⟨1024 * i.val + p.val, by omega⟩ : Fin 8192) c then 1 else 0)
    (fun n => (scrAt (ptsOf E Lc Lr) n).s4 (ix2 p (0 : Fin 1))) (16 * i.val + 8) (by omega)
    (fun n hlo hhi => negCnt_point hL i h0 p n (by omega) (by omega))).trans
  (sum_ones_eq_cnt Finset.univ _)

include hL h0 in
theorem total_expSum : (scrAt (ptsOf E Lc Lr) (16 * i.val + 15)).s5 (ix2 p (0 : Fin 1))
    = TripletSpec.expSum (rows E) (labs Lc) (⟨1024 * i.val + p.val, by omega⟩ : Fin 8192) :=
  sum_of_eight_tiles
    (fun c => if TripletSpec.negSel (rows E) (labs Lc) (⟨1024 * i.val + p.val, by omega⟩ : Fin 8192) c
      then Ideal.exp (TripletSpec.forty
        * (TripletSpec.sim (rows E) (⟨1024 * i.val + p.val, by omega⟩ : Fin 8192) c - TripletSpec.half)) else 0)
    (fun n => (scrAt (ptsOf E Lc Lr) n).s5 (ix2 p (0 : Fin 1))) (16 * i.val + 8) (by omega)
    (fun n hlo hhi => expSum_point hL i h0 p n (by omega) (by omega))

include hL h0 in
theorem total_negSum : (scrAt (ptsOf E Lc Lr) (16 * i.val + 15)).s6 (ix2 p (0 : Fin 1))
    = TripletSpec.negSum (rows E) (labs Lc) (⟨1024 * i.val + p.val, by omega⟩ : Fin 8192) :=
  sum_of_eight_tiles
    (fun c => if TripletSpec.negSel (rows E) (labs Lc) (⟨1024 * i.val + p.val, by omega⟩ : Fin 8192) c
      then TripletSpec.sim (rows E) (⟨1024 * i.val + p.val, by omega⟩ : Fin 8192) c else 0)
    (fun n => (scrAt (ptsOf E Lc Lr) n).s6 (ix2 p (0 : Fin 1))) (16 * i.val + 8) (by omega)
    (fun n hlo hhi => negSum_point hL i h0 p n (by omega) (by omega))

theorem last_point (B : ℕ → Pt Ideal) : ∃ s : Scr Ideal, scrAt B (16 * i.val + 15) = stepAcc (B (16 * i.val + 15)) s :=
  ⟨_, scrAt_acc_phase B (16 * i.val + 14) (by omega)⟩

include hL h0 h1 in

theorem out_loss : (scrAt (ptsOf E Lc Lr) (16 * i.val + 15)).o4 (ix2 p (0 : Fin 1))
    = TripletSpec.rowLoss (rows E) (labs Lc) (⟨1024 * i.val + p.val, by omega⟩ : Fin 8192) := by
  have ho : (scrAt (ptsOf E Lc Lr) (16 * i.val + 15)).o4
      = k0_pay8 (F := Ideal) (scrAt (ptsOf E Lc Lr) (16 * i.val + 15)).s3 (scrAt (ptsOf E Lc Lr) (16 * i.val + 15)).s4
          (scrAt (ptsOf E Lc Lr) (16 * i.val + 15)).s2 (scrAt (ptsOf E Lc Lr) (16 * i.val + 15)).s6
          (scrAt (ptsOf E Lc Lr) (16 * i.val + 15)).s5 := by
    obtain ⟨s, hs⟩ := last_point i (ptsOf E Lc Lr)
    rw [hs]; rfl
  rw [ho, loss_of_accumulators, total_posCnt hL i h1 p, total_negCnt hL i h0 p, total_posSum hL i h1 p,
    total_negSum hL i h0 p, total_expSum hL i h0 p]
  unfold TripletSpec.rowLoss
  congr 1 <;> exact if_congr (cnt_pos_iff _) rfl rfl

include hL h0 h1 in

theorem out_negCnt : (scrAt (ptsOf E Lc Lr) (16 * i.val + 15)).o5 (ix2 p (0 : Fin 1))
    = TripletSpec.cnt (TripletSpec.negCnt (rows E) (labs Lc) (⟨1024 * i.val + p.val, by omega⟩ : Fin 8192)) := by
  have ho : (scrAt (ptsOf E Lc Lr) (16 * i.val + 15)).o5 = (scrAt (ptsOf E Lc Lr) (16 * i.val + 15)).s4 := by
    obtain ⟨s, hs⟩ := last_point i (ptsOf E Lc Lr)
    rw [hs]; rfl
  rw [ho, total_negCnt hL i h0 p]

end RowTile

end Cert.KernelIdeal.Tile.Acc

end
-- ==== Proof.TripletArrays.lean ====
/- An 8192 x 512 array read as rows, an 8192 array as labels. -/
import proofs.«180551_j55817394979145_1_alg».proof.Proof.TripletSpec
import Idealize.ShloMosaic.Lib.ValueIdx

noncomputable section

namespace TripletSpec

open Idealize.ShloMosaic Idealize.ShloMosaic.ValueIdx

def rowsOf (x : (⟨2, ![8192, 512]⟩ : Shape).Idx → EReal) : Fin 8192 → Fin 512 → EReal := fun r k => x (ix2 r k)

def labsOf (l : (⟨1, ![8192]⟩ : Shape).Idx → BitVec 32) : Fin 8192 → BitVec 32 := fun r => l (ix1 r)

end TripletSpec

end
-- ==== Proof.TileValue.lean ====
/- At a row tile's last point the carried state holds the specification's row loss and count. -/
import proofs.«180551_j55817394979145_1_alg».proof.Proof.TileBlocks
import proofs.«180551_j55817394979145_1_alg».proof.Proof.TileThr
import proofs.«180551_j55817394979145_1_alg».proof.Proof.TileAcc
import proofs.«180551_j55817394979145_1_alg».proof.Proof.TripletArrays

noncomputable section

namespace Cert.KernelIdeal.Tile

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

theorem rows_eq (c : Dev nD) :
    rows (V (F := Ideal) m c main_v0) = TripletSpec.rowsOf (m ((c : Thread nD τ).loc main_arg0) : S8192x512.Idx → EReal) := by
  funext r k
  show (V (F := Ideal) m c main_v0 : S8192x512.Idx → EReal) (ix2 r k) = _
  rw [V_emb]
  rfl

theorem labs_eq (c : Dev nD) :
    labs (V (F := Ideal) m c main_v1) = TripletSpec.labsOf (m ((c : Thread nD τ).loc main_arg1) : S8192.Idx → BitVec 32) := by
  funext r
  exact V_labc m c r

theorem labels_agree (c : Dev nD) (r : Fin 8192) :
    (V (F := Ideal) m c main_v2 : S1x8192.Idx → BitVec 32) (ix2 (0 : Fin 1) r)
      = (V (F := Ideal) m c main_v1 : S8192x1.Idx → BitVec 32) (ix2 r (0 : Fin 1)) := by
  rw [V_labr, V_labc]

theorem thr_through (c : Dev nD) (i : Fin 8) :
    (∀ n : ℕ, 16 * i.val + 7 ≤ n → n ≤ 16 * i.val + 15 → ∀ p : Fin 1024,
      (scrAt (ptsOf (V (F := Ideal) m c main_v0) (V (F := Ideal) m c main_v1) (V (F := Ideal) m c main_v2)) n).s0 (ix2 p (0 : Fin 1))
        = TripletSpec.maxPos (rows (V (F := Ideal) m c main_v0)) (labs (V (F := Ideal) m c main_v1)) (⟨1024 * i.val + p.val, by omega⟩ : Fin 8192))
    ∧ (∀ n : ℕ, 16 * i.val + 7 ≤ n → n ≤ 16 * i.val + 15 → ∀ p : Fin 1024,
      (scrAt (ptsOf (V (F := Ideal) m c main_v0) (V (F := Ideal) m c main_v1) (V (F := Ideal) m c main_v2)) n).s1 (ix2 p (0 : Fin 1))
        = TripletSpec.minNeg (rows (V (F := Ideal) m c main_v0)) (labs (V (F := Ideal) m c main_v1)) (⟨1024 * i.val + p.val, by omega⟩ : Fin 8192)) := by
  constructor
  · intro n h7 h15 p
    rcases Nat.eq_or_lt_of_le h7 with h | h
    · rw [← h]; exact Thr.thr_maxPos _ _ _ (labels_agree m c) i p
    · obtain ⟨j, rfl⟩ : ∃ j, n = 16 * i.val + 8 + j := ⟨n - (16 * i.val + 8), by omega⟩
      rw [(Thr.thr_kept _ _ _ i j (by omega)).1]; exact Thr.thr_maxPos _ _ _ (labels_agree m c) i p
  · intro n h7 h15 p
    rcases Nat.eq_or_lt_of_le h7 with h | h
    · rw [← h]; exact Thr.thr_minNeg _ _ _ (labels_agree m c) i p
    · obtain ⟨j, rfl⟩ : ∃ j, n = 16 * i.val + 8 + j := ⟨n - (16 * i.val + 8), by omega⟩
      rw [(Thr.thr_kept _ _ _ i j (by omega)).2]; exact Thr.thr_minNeg _ _ _ (labels_agree m c) i p

theorem scr_loss (c : Dev nD) (r : Fin 8192) :
    (scrAt (ptsOf (V (F := Ideal) m c main_v0) (V (F := Ideal) m c main_v1) (V (F := Ideal) m c main_v2)) (16 * (r.val / 1024) + 15)).o4
        (ix2 (⟨r.val % 1024, Nat.mod_lt _ (by decide)⟩ : Fin 1024) (0 : Fin 1))
      = TripletSpec.rowLoss (TripletSpec.rowsOf (m ((c : Thread nD τ).loc main_arg0) : S8192x512.Idx → EReal))
          (TripletSpec.labsOf (m ((c : Thread nD τ).loc main_arg1) : S8192.Idx → BitVec 32)) r := by
  have hr : r.val < 8192 := r.isLt
  have h := Acc.out_loss (labels_agree m c) (⟨r.val / 1024, by omega⟩ : Fin 8) (thr_through m c _).1 (thr_through m c _).2
    (⟨r.val % 1024, Nat.mod_lt _ (by decide)⟩ : Fin 1024)
  rw [rows_eq, labs_eq] at h
  have e : (⟨1024 * (r.val / 1024) + r.val % 1024, by omega⟩ : Fin 8192) = r := Fin.ext (by show 1024 * (r.val / 1024) + r.val % 1024 = r.val; omega)
  exact h.trans (congrArg (TripletSpec.rowLoss _ _) e)

theorem scr_negCnt (c : Dev nD) (r : Fin 8192) :
    (scrAt (ptsOf (V (F := Ideal) m c main_v0) (V (F := Ideal) m c main_v1) (V (F := Ideal) m c main_v2)) (16 * (r.val / 1024) + 15)).o5
        (ix2 (⟨r.val % 1024, Nat.mod_lt _ (by decide)⟩ : Fin 1024) (0 : Fin 1))
      = TripletSpec.cnt (TripletSpec.negCnt (TripletSpec.rowsOf (m ((c : Thread nD τ).loc main_arg0) : S8192x512.Idx → EReal))
          (TripletSpec.labsOf (m ((c : Thread nD τ).loc main_arg1) : S8192.Idx → BitVec 32)) r) := by
  have hr : r.val < 8192 := r.isLt
  have h := Acc.out_negCnt (labels_agree m c) (⟨r.val / 1024, by omega⟩ : Fin 8) (thr_through m c _).1 (thr_through m c _).2
    (⟨r.val % 1024, Nat.mod_lt _ (by decide)⟩ : Fin 1024)
  rw [rows_eq, labs_eq] at h
  have e : (⟨1024 * (r.val / 1024) + r.val % 1024, by omega⟩ : Fin 8192) = r := Fin.ext (by show 1024 * (r.val / 1024) + r.val % 1024 = r.val; omega)
  exact h.trans (congrArg (fun x => TripletSpec.cnt (TripletSpec.negCnt _ _ x)) e)

end Cert.KernelIdeal.Tile

end
-- ==== Proof.HalfWord.lean ====
/- A count rounded to nearest-even, converted to a 32-bit word and floor-divided by 2 is half the count, rounded down. -/
import Idealize.ShloMosaic.PureOps.Ideal
import Idealize.ShloMosaic.Lib.ValueIdx

noncomputable section

namespace TripletSpec.Half

open Idealize.ShloMosaic

def signWord (x : BitVec 32) : BitVec 32 := if x = 0 then 0 else if x.msb then -1 else 1

def halve (x : BitVec 32) : BitVec 32 :=
  Scalar.select
    (IntOp.andi (IntOp.cmpi .ne (signWord x) (signWord 2#32)) (IntOp.cmpi .ne (IntOp.remsi .host x 2#32) 0#32))
    (IntOp.subi (IntOp.divsi .host x 2#32) 1#32)
    (IntOp.divsi .host x 2#32)

def floorDiv2 {S : Shape} (bc : (⟨0, ![]⟩ : Shape).BroadcastsInDim S (![] : Fin 0 → Fin S.rank)) (v : IVec S 32) :
    IVec S 32 :=
  let two : IVec ⟨0, ![]⟩ 32 := id (constantI ⟨0, ![]⟩ 32 2#32)
  let d : IVec S 32 := broadcastInDim S ![] bc two
  let q : IVec S 32 := Host.divsi v d
  let sx : IVec S 32 := signi v
  let sd : IVec S 32 := broadcastInDim S ![] bc (signi two)
  let differ : IVec S 1 := cmpi .ne sx sd
  let d' : IVec S 32 := broadcastInDim S ![] bc two
  let r : IVec S 32 := Host.remsi v d'
  let zero : IVec S 32 := broadcastInDim S ![] bc (constantI ⟨0, ![]⟩ 32 0#32)
  let inexact : IVec S 1 := cmpi .ne r zero
  let both : IVec S 1 := andi differ inexact
  let one : IVec S 32 := broadcastInDim S ![] bc (constantI ⟨0, ![]⟩ 32 1#32)
  let less : IVec S 32 := subi q one
  select both less q

theorem chain_apply {S : Shape} (bc : (⟨0, ![]⟩ : Shape).BroadcastsInDim S (![] : Fin 0 → Fin S.rank)) (v : IVec S 32)
    (j : S.Idx) : floorDiv2 bc v j = halve (v j) := rfl

theorem roundHalfEven_natCast (n : ℕ) : Ideal.roundHalfEven (n : ℝ) = (n : ℤ) := by
  unfold Ideal.roundHalfEven
  simp only [Int.floor_natCast]
  rw [if_pos]
  push_cast
  norm_num

theorem fptosi_round_natCast (n : ℕ) (hn : n ≤ 8192) :
    Ideal.fptosi 32 (Ideal.liftRound Ideal.roundHalfEven (((n : ℝ) : EReal))) = BitVec.ofNat 32 n := by
  rw [Ideal.liftRound_coe, roundHalfEven_natCast, Ideal.fptosi, Ideal.toIntClamped_coe]
  have h0 : (0 : ℝ) ≤ (((n : ℤ) : ℝ)) := by exact_mod_cast Nat.zero_le n
  rw [if_pos h0, Int.floor_intCast]
  have hp : ((2 ^ (32 - 1) : ℕ) : ℤ) = 2147483648 := by norm_num
  have hn' : (n : ℤ) ≤ 8192 := by exact_mod_cast hn
  have hn0 : (0 : ℤ) ≤ (n : ℤ) := Int.natCast_nonneg n
  have hmin : min (((2 ^ (32 - 1) : ℕ) : ℤ) - 1) (n : ℤ) = (n : ℤ) := min_eq_right (by rw [hp]; omega)
  have hmax : max (-((2 ^ (32 - 1) : ℕ) : ℤ)) (n : ℤ) = (n : ℤ) := max_eq_right (by rw [hp]; omega)
  rw [hmin, hmax, BitVec.ofInt_natCast]

end TripletSpec.Half

end
-- ==== Proof.KernelTail.lean ====
/- After the grid: the mean of the column of row losses, and the sum of the rounded, halved counts. -/
import proofs.«180551_j55817394979145_1_alg».proof.Proof.Gen.KernelIdeal.Launch
import proofs.«180551_j55817394979145_1_alg».proof.Proof.TripletSpec
import proofs.«180551_j55817394979145_1_alg».proof.Proof.HalfWord
import Idealize.ShloMosaic.Lib.StableHlo.Run
import Idealize.ShloMosaic.Lib.ValueIdx
import Idealize.ShloMosaic.PureOps.Ideal.Laws
import Idealize.ShloMosaic.PureOps.Reduce

noncomputable section

namespace Cert.KernelIdeal.Tail

open Idealize.ShloMosaic Idealize.ShloMosaic.ValueIdx Idealize.ShloMosaic.StableHlo
open scoped BigOperators

abbrev tailOps : List (List (HloOp τ sig (Elt Ideal))) :=
  [Gen.hostOps1, Gen.hostOps1_1, Gen.hostOps1_2, Gen.hostOps1_3, Gen.hostOps1_4]

theorem sum_column {M : Type*} [AddCommMonoid M] (f : S8192x1.Idx → M) :
    ∑ i, f i = ∑ r : Fin 8192, f (ix2 r (0 : Fin 1)) := by
  rw [sum_idx2]
  exact Finset.sum_congr rfl fun r _ => Fin.sum_univ_one _

theorem mean_column (x : S8192x1.Idx → EReal) (j : S_.Idx) :
    Host.divf (F := Ideal) (φ := .f32)
        (Host.reduceAdd (F := Ideal) (φ := .f32) x (constant (F := Ideal) S_ .f32 0x00000000#32)
          Gen.reducesTo_S8192x1_S_d0_1 Gen.h_S_)
        (constant (F := Ideal) S_ .f32 0x46000000#32) j
      = Ideal.div (∑ r : Fin 8192, x (ix2 r (0 : Fin 1))) TripletSpec.nRows := by
  show Ideal.div (Ideal.hostReduceAdd Gen.reducesTo_S8192x1_S_d0_1 x (Ideal.ofBits .f32 0x00000000#32) j)
      (Ideal.ofBits .f32 0x46000000#32) = _
  rw [Ideal.hostReduceAdd_total Gen.reducesTo_S8192x1_S_d0_1 (fun b => b.elim0) x _ j, Ideal.ofBits_zero_f32, zero_add,
    sum_column]

theorem fold_addi_eq_ofNat_sum {ι : Type*} [DecidableEq ι] (x : ι → BitVec 32) (s : Finset ι) :
    s.fold IntOp.addi 0#32 x = BitVec.ofNat 32 (∑ i ∈ s, (x i).toNat) := by
  induction s using Finset.induction_on with
  | empty => rfl
  | insert a s ha ih =>
    rw [Finset.fold_insert ha, Finset.sum_insert ha, ih, BitVec.ofNat_add, BitVec.ofNat_toNat, BitVec.setWidth_eq]
    rfl

theorem sum_words_column (x : IVec S8192x1 32) (j : S_.Idx) :
    Host.reduce IntOp.addi x (constantI S_ 32 0#32) Gen.reducesTo_S8192x1_S_d0_1 Gen.h_S_ j
      = BitVec.ofNat 32 (∑ r : Fin 8192, (x (ix2 r (0 : Fin 1))).toNat) := by
  rw [Host.reduce_eq_fold, Finset.filter_true_of_mem fun i _ => funext fun b => b.elim0]
  show Finset.univ.fold IntOp.addi 0#32 x = _
  rw [fold_addi_eq_ofNat_sum, sum_column]

variable (W : Valuation τ sig (Elt Ideal)) (e : Fin 8192 → Fin 512 → EReal) (l : Fin 8192 → BitVec 32)

theorem negCnt_le (r : Fin 8192) : TripletSpec.negCnt e l r ≤ 8192 := by
  unfold TripletSpec.negCnt
  exact (Finset.card_filter_le _ _).trans (by simp)

theorem tail_loss (h4 : ∀ r : Fin 8192, W (Proc.devRef .tc main_v3_0) (ix2 r (0 : Fin 1)) = TripletSpec.rowLoss e l r) :
    StableHlo.after tailOps.flatten W (Proc.devRef .tc main_v5) = fun _ => TripletSpec.loss e l := by
  simp only [tailOps, Gen.hostOps1, Gen.hostOps1_1, Gen.hostOps1_2, Gen.hostOps1_3, Gen.hostOps1_4, List.flatten_cons,
    List.flatten_nil, List.append_nil, List.cons_append, List.nil_append]
  after_results_simp
  funext j
  refine (mean_column (W (Proc.devRef .tc main_v3_0)) j).trans ?_
  unfold TripletSpec.loss
  exact congrArg (fun s => Ideal.div s TripletSpec.nRows) (Finset.sum_congr rfl fun r _ => h4 r)

theorem tail_triplets (h5 : ∀ r : Fin 8192, W (Proc.devRef .tc main_v3_1) (ix2 r (0 : Fin 1)) = TripletSpec.cnt (TripletSpec.negCnt e l r)) :
    StableHlo.after tailOps.flatten W (Proc.devRef .tc main_v9) = fun _ => TripletSpec.triplets e l TripletSpec.Half.halve := by
  simp only [tailOps, Gen.hostOps1, Gen.hostOps1_1, Gen.hostOps1_2, Gen.hostOps1_3, Gen.hostOps1_4, List.flatten_cons,
    List.flatten_nil, List.append_nil, List.cons_append, List.nil_append]
  after_results_simp
  simp only [TRef.ofBuf, TRef.toBuf, cast_eq]
  funext j
  show Host.reduce IntOp.addi
      (TripletSpec.Half.floorDiv2 Gen.bcast_S_S8192x1
        (fptosi (F := Ideal) (φ := .f32) 32 (Host.roundeven (F := Ideal) (φ := .f32) (W (Proc.devRef .tc main_v3_1)))))
      (constantI S_ 32 0#32) Gen.reducesTo_S8192x1_S_d0_1 Gen.h_S_ j = _
  rw [sum_words_column]
  unfold TripletSpec.triplets
  refine congrArg (BitVec.ofNat 32) (Finset.sum_congr rfl fun r _ => ?_)
  rw [TripletSpec.Half.chain_apply]
  refine congrArg (fun w => (TripletSpec.Half.halve w).toNat) ?_
  show Ideal.fptosi 32 (Ideal.liftRound Ideal.roundHalfEven (W (Proc.devRef .tc main_v3_1) (ix2 r (0 : Fin 1)))) = _
  rw [h5 r]
  exact TripletSpec.Half.fptosi_round_natCast _ (negCnt_le e l r)

theorem tail_zero : StableHlo.after tailOps.flatten W (Proc.devRef .tc main_c_2) = fun _ => 0#32 := by
  simp only [tailOps, Gen.hostOps1, Gen.hostOps1_1, Gen.hostOps1_2, Gen.hostOps1_3, Gen.hostOps1_4, List.flatten_cons,
    List.flatten_nil, List.append_nil, List.cons_append, List.nil_append]
  after_results_simp
  rfl

end Cert.KernelIdeal.Tail

end
-- ==== Proof.KernelWhole.lean ====
/- The kernel program's run: its frame for any float values, and over the extended reals its three results as the specification's. -/
import proofs.«180551_j55817394979145_1_alg».proof.Proof.TileLink
import proofs.«180551_j55817394979145_1_alg».proof.Proof.TileLaunch
import proofs.«180551_j55817394979145_1_alg».proof.Proof.TileFinal
import proofs.«180551_j55817394979145_1_alg».proof.Proof.TileValue
import proofs.«180551_j55817394979145_1_alg».proof.Proof.KernelTail

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window BodyObligation)
open Cert.KernelIdeal Cert.KernelIdeal.Gen Cert.KernelIdeal.Tile

section
variable {F : FTy → Type} [FloatOps F] (m : (ℓ : Loc nD τ sig) → Buf (Elt F) ℓ) (ρ : Dev nD → PrngReg)

theorem run_main :
    θ_run (defs (F := F)) (onTc (τ := τ) (main (F := F))) (s₀ m ρ)
      (Pipeline.FramePost cfgs (dats m) 0 (fun c b => StableHlo.after (tailOps (F := F)).flatten (Wx m (dats m) c) (Proc.devRef .tc b))) :=
  run_main_of m ρ (dats m) (A_eq m) (fun _ _ => rfl) (body_obligation m) (hin m) (hout m) (fun _ _ => rfl)

/-- For any float values the program runs and leaves its two arguments as they were. -/
theorem frame :
    θ_run (defs (F := F)) (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end

variable (m : (ℓ : Loc nD τ sig) → Buf (Elt Ideal) ℓ) (ρ : Dev nD → PrngReg)

abbrev embs (c : Dev nD) : Fin 8192 → Fin 512 → EReal :=
  TripletSpec.rowsOf (m ((c : Thread nD τ).loc main_arg0) : S8192x512.Idx → EReal)
abbrev lbls (c : Dev nD) : Fin 8192 → BitVec 32 :=
  TripletSpec.labsOf (m ((c : Thread nD τ).loc main_arg1) : S8192.Idx → BitVec 32)

theorem pts_on_grid (c : Dev nD) (k : ℕ) (hk : k < cfg0.N) :
    ptsOf (V (F := Ideal) m c main_v0) (V (F := Ideal) m c main_v1) (V (F := Ideal) m c main_v2) k = ptOn m c ⟨k, hk⟩ :=
  (pt_eq m c ⟨k, hk⟩).symm

theorem out4_rows (c : Dev nD) (r : Fin 8192) :
    (Wx m (dats m) c (Proc.devRef .tc main_v3_0) : S8192x1.Idx → EReal) (ix2 r (0 : Fin 1))
      = TripletSpec.rowLoss (embs m c) (lbls m c) r := by
  have hr : r.val < 8192 := r.isLt
  have hN : 16 * (r.val / 1024) + 15 < cfg0.N := by rw [show cfg0.N = 128 from N_0]; omega
  rw [Wx_out4]
  rw [arr4_final (dats m 0 c) (fun t => (outsAt0 m c t.val t.isLt).o4) (after0_4 m c) r ⟨16 * (r.val / 1024) + 15, hN⟩ rfl]
  show (outsAt0 m c (16 * (r.val / 1024) + 15) hN).o4 _ = _
  rw [(outsAt0_outs m c _ (pts_on_grid m c) (16 * (r.val / 1024) + 15) hN (by omega)).1]
  exact scr_loss m c r

theorem out5_rows (c : Dev nD) (r : Fin 8192) :
    (Wx m (dats m) c (Proc.devRef .tc main_v3_1) : S8192x1.Idx → EReal) (ix2 r (0 : Fin 1))
      = TripletSpec.cnt (TripletSpec.negCnt (embs m c) (lbls m c) r) := by
  have hr : r.val < 8192 := r.isLt
  have hN : 16 * (r.val / 1024) + 15 < cfg0.N := by rw [show cfg0.N = 128 from N_0]; omega
  rw [Wx_out5]
  rw [arr5_final (dats m 0 c) (fun t => (outsAt0 m c t.val t.isLt).o5) (after0_5 m c) r ⟨16 * (r.val / 1024) + 15, hN⟩ rfl]
  show (outsAt0 m c (16 * (r.val / 1024) + 15) hN).o5 _ = _
  rw [(outsAt0_outs m c _ (pts_on_grid m c) (16 * (r.val / 1024) + 15) hN (by omega)).2]
  exact scr_negCnt m c r

theorem kernel_run :
    θ_run (defs (F := Ideal)) (onTc (τ := τ) (main (F := Ideal))) ⟨m, fun _ => 0, ρ⟩ (fun r => ∀ c : Dev nD,
        r.2.mem ((c.tc : Thread nD τ).loc main_v5) = (fun _ => TripletSpec.loss (embs m c) (lbls m c))
      ∧ r.2.mem ((c.tc : Thread nD τ).loc main_v9) = (fun _ => TripletSpec.triplets (embs m c) (lbls m c) TripletSpec.Half.halve)
      ∧ r.2.mem ((c.tc : Thread nD τ).loc main_c_2) = (fun _ => 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r h c => by
      obtain ⟨h5, h9, h2, ha0, ha1⟩ := post_results m (dats m) (A_eq m) r h c
      exact ⟨h5.trans (Tail.tail_loss _ _ _ (out4_rows m c)),
        h9.trans (Tail.tail_triplets _ _ _ (out5_rows m c)),
        h2.trans (Tail.tail_zero _), ha0, ha1⟩)
    (run_main m ρ)

end Cert.KernelIdeal.Whole

end
-- ==== Proof.RefStages.lean ====
/- The reference's operations, named stage by stage as functions of the two arguments. -/
import proofs.«180551_j55817394979145_1_alg».proof.ReferenceIdeal

noncomputable section

namespace Cert.ReferenceIdeal.Stages

open Idealize.ShloMosaic Cert.ReferenceIdeal Cert.ReferenceIdeal.Facts₀

variable {F : FTy → Type} [FloatOps F] [Cert.ReferenceIdeal.Facts]

def xT (x : FVec F S8192x512 .f32) : FVec F S512x8192 .f32 :=
  transpose S512x8192 [1, 0] x transposes_S8192x512_S512x8192_1_0

def simT (x : FVec F S8192x512 .f32) : FVec F S8192x8192 .f32 :=
  Host.dotGeneral dot_S8192x512_S512x8192_S8192x8192_1_0_0_1_n_n none x (xT x)

def labCol (lab : IVec S8192 32) : IVec S8192x1 32 :=
  broadcastInDim S8192x1 ![0] bcast_S8192_S8192x1_0 lab

def labRow (lab : IVec S8192 32) : IVec S1x8192 32 :=
  broadcastInDim S1x8192 ![1] bcast_S8192_S1x8192_1 lab

def labColFull (lab : IVec S8192 32) : IVec S8192x8192 32 :=
  broadcastInDim S8192x8192 ![0, 1] bcast_S8192x1_S8192x8192_0_1 (labCol lab)

def labRowFull (lab : IVec S8192 32) : IVec S8192x8192 32 :=
  broadcastInDim S8192x8192 ![0, 1] bcast_S1x8192_S8192x8192_0_1 (labRow lab)

def sameLab (lab : IVec S8192 32) : IVec S8192x8192 1 :=
  cmpi .eq (labColFull lab) (labRowFull lab)

def rowIota : IVec S8192x8192 32 := iotaInDim S8192x8192 32 0

def colIota : IVec S8192x8192 32 := iotaInDim S8192x8192 32 1

def eyeOffset : IVec S_ 32 := constantI S_ 32 0#32

def eyeOffsetFull : IVec S8192x8192 32 :=
  broadcastInDim S8192x8192 ![] bcast_S_S8192x8192 eyeOffset

def rowShifted : IVec S8192x8192 32 := addi rowIota eyeOffsetFull

def eye : IVec S8192x8192 1 := cmpi .eq rowShifted colIota

def offDiag : IVec S8192x8192 1 := noti eye

def posMask (lab : IVec S8192 32) : IVec S8192x8192 1 := andi (sameLab lab) offDiag

def negMask (lab : IVec S8192 32) : IVec S8192x8192 1 := noti (sameLab lab)

def negBigScalar : FVec F S_ .f32 := constant S_ .f32 0xCE6E6B28#32

def negBigConv : FVec F S_ .f32 := id (negBigScalar (F := F))

def negBigFull : FVec F S8192x8192 .f32 :=
  broadcastInDim S8192x8192 ![] bcast_S_S8192x8192 (negBigConv (F := F))

def posFilled (x : FVec F S8192x512 .f32) (lab : IVec S8192 32) : FVec F S8192x8192 .f32 :=
  select (posMask lab) (simT x) negBigFull

def maxInit : FVec F S_ .f32 := constant S_ .f32 0xFF800000#32

def maxPosV (x : FVec F S8192x512 .f32) (lab : IVec S8192 32) : FVec F S8192 .f32 :=
  Host.reduce FloatOps.maximumf (posFilled x lab) maxInit reducesTo_S8192x8192_S8192_d1 h_S_

def posBigScalar : FVec F S_ .f32 := constant S_ .f32 0x4E6E6B28#32

def posBigConv : FVec F S_ .f32 := id (posBigScalar (F := F))

def posBigFull : FVec F S8192x8192 .f32 :=
  broadcastInDim S8192x8192 ![] bcast_S_S8192x8192 (posBigConv (F := F))

def negFilled (x : FVec F S8192x512 .f32) (lab : IVec S8192 32) : FVec F S8192x8192 .f32 :=
  select (negMask lab) (simT x) posBigFull

def minInit : FVec F S_ .f32 := constant S_ .f32 0x7F800000#32

def minNegV (x : FVec F S8192x512 .f32) (lab : IVec S8192 32) : FVec F S8192 .f32 :=
  Host.reduce FloatOps.minimumf (negFilled x lab) minInit reducesTo_S8192x8192_S8192_d1 h_S_

def maxPosCol (x : FVec F S8192x512 .f32) (lab : IVec S8192 32) : FVec F S8192x1 .f32 :=
  broadcastInDim S8192x1 ![0] bcast_S8192_S8192x1_0 (maxPosV x lab)

def maxPosFull (x : FVec F S8192x512 .f32) (lab : IVec S8192 32) : FVec F S8192x8192 .f32 :=
  broadcastInDim S8192x8192 ![0, 1] bcast_S8192x1_S8192x8192_0_1 (maxPosCol x lab)

def belowMax (x : FVec F S8192x512 .f32) (lab : IVec S8192 32) : IVec S8192x8192 1 :=
  cmpf .olt (simT x) (maxPosFull x lab)

def negSelM (x : FVec F S8192x512 .f32) (lab : IVec S8192 32) : IVec S8192x8192 1 :=
  andi (negMask lab) (belowMax x lab)

def minNegCol (x : FVec F S8192x512 .f32) (lab : IVec S8192 32) : FVec F S8192x1 .f32 :=
  broadcastInDim S8192x1 ![0] bcast_S8192_S8192x1_0 (minNegV x lab)

def minNegFull (x : FVec F S8192x512 .f32) (lab : IVec S8192 32) : FVec F S8192x8192 .f32 :=
  broadcastInDim S8192x8192 ![0, 1] bcast_S8192x1_S8192x8192_0_1 (minNegCol x lab)

def aboveMin (x : FVec F S8192x512 .f32) (lab : IVec S8192 32) : IVec S8192x8192 1 :=
  cmpf .ogt (simT x) (minNegFull x lab)

def posSelM (x : FVec F S8192x512 .f32) (lab : IVec S8192 32) : IVec S8192x8192 1 :=
  andi (posMask lab) (aboveMin x lab)

def posSelWide (x : FVec F S8192x512 .f32) (lab : IVec S8192 32) : IVec S8192x8192 32 :=
  extui 32 (posSelM x lab) natLt_1_32

def posCntInit : IVec S_ 32 := constantI S_ 32 0#32

def posCntV (x : FVec F S8192x512 .f32) (lab : IVec S8192 32) : IVec S8192 32 :=
  Host.reduce IntOp.addi (posSelWide x lab) posCntInit reducesTo_S8192x8192_S8192_d1 h_S_

def negSelWide (x : FVec F S8192x512 .f32) (lab : IVec S8192 32) : IVec S8192x8192 32 :=
  extui 32 (negSelM x lab) natLt_1_32

def negCntInit : IVec S_ 32 := constantI S_ 32 0#32

def negCntV (x : FVec F S8192x512 .f32) (lab : IVec S8192 32) : IVec S8192 32 :=
  Host.reduce IntOp.addi (negSelWide x lab) negCntInit reducesTo_S8192x8192_S8192_d1 h_S_

def oneScalar : FVec F S_ .f32 := constant S_ .f32 0x3F800000#32

def oneFull : FVec F S8192x8192 .f32 :=
  broadcastInDim S8192x8192 ![] bcast_S_S8192x8192 (oneScalar (F := F))

def oneMinusSim (x : FVec F S8192x512 .f32) : FVec F S8192x8192 .f32 := subf oneFull (simT x)

def posZeroScalar : FVec F S_ .f32 := constant S_ .f32 0x00000000#32

def posZeroConv : FVec F S_ .f32 := id (posZeroScalar (F := F))

def posZeroFull : FVec F S8192x8192 .f32 :=
  broadcastInDim S8192x8192 ![] bcast_S_S8192x8192 (posZeroConv (F := F))

def posTerms (x : FVec F S8192x512 .f32) (lab : IVec S8192 32) : FVec F S8192x8192 .f32 :=
  select (posSelM x lab) (oneMinusSim x) posZeroFull

def posSumInit : FVec F S_ .f32 := constant S_ .f32 0x00000000#32

def posSumV (x : FVec F S8192x512 .f32) (lab : IVec S8192 32) : FVec F S8192 .f32 :=
  Host.reduceAdd (posTerms x lab) posSumInit reducesTo_S8192x8192_S8192_d1 h_S_

def posZeroCnt : IVec S8192 32 :=
  broadcastInDim S8192 ![] bcast_S_S8192 (constantI S_ 32 0#32)

def posAny (x : FVec F S8192x512 .f32) (lab : IVec S8192 32) : IVec S8192 1 :=
  cmpi .sgt (posCntV x lab) posZeroCnt

def posOneCnt : IVec S8192 32 :=
  broadcastInDim S8192 ![] bcast_S_S8192 (constantI S_ 32 1#32)

def posCntClamped (x : FVec F S8192x512 .f32) (lab : IVec S8192 32) : IVec S8192 32 :=
  maxsi (posCntV x lab) posOneCnt

def posCntF (x : FVec F S8192x512 .f32) (lab : IVec S8192 32) : FVec F S8192 .f32 :=
  sitofp .f32 (posCntClamped x lab)

def posMean (x : FVec F S8192x512 .f32) (lab : IVec S8192 32) : FVec F S8192 .f32 :=
  Host.divf (posSumV x lab) (posCntF x lab)

def posLossZeroScalar : FVec F S_ .f32 := constant S_ .f32 0x00000000#32

def posLossZeroConv : FVec F S_ .f32 := id (posLossZeroScalar (F := F))

def posLossZero : FVec F S8192 .f32 :=
  broadcastInDim S8192 ![] bcast_S_S8192 (posLossZeroConv (F := F))

def posLoss (x : FVec F S8192x512 .f32) (lab : IVec S8192 32) : FVec F S8192 .f32 :=
  select (posAny x lab) (posMean x lab) posLossZero

def halfScalar : FVec F S_ .f32 := constant S_ .f32 0x3F000000#32

def halfFull : FVec F S8192x8192 .f32 :=
  broadcastInDim S8192x8192 ![] bcast_S_S8192x8192 (halfScalar (F := F))

def simMinusHalf (x : FVec F S8192x512 .f32) : FVec F S8192x8192 .f32 := subf (simT x) halfFull

def fortyScalar : FVec F S_ .f32 := constant S_ .f32 0x42200000#32

def fortyFull : FVec F S8192x8192 .f32 :=
  broadcastInDim S8192x8192 ![] bcast_S_S8192x8192 (fortyScalar (F := F))

def scaled (x : FVec F S8192x512 .f32) : FVec F S8192x8192 .f32 := mulf fortyFull (simMinusHalf x)

def expScaled (x : FVec F S8192x512 .f32) : FVec F S8192x8192 .f32 := Host.exp (scaled x)

def expZeroScalar : FVec F S_ .f32 := constant S_ .f32 0x00000000#32

def expZeroConv : FVec F S_ .f32 := id (expZeroScalar (F := F))

def expZeroFull : FVec F S8192x8192 .f32 :=
  broadcastInDim S8192x8192 ![] bcast_S_S8192x8192 (expZeroConv (F := F))

def expTerms (x : FVec F S8192x512 .f32) (lab : IVec S8192 32) : FVec F S8192x8192 .f32 :=
  select (negSelM x lab) (expScaled x) expZeroFull

def expSumInit : FVec F S_ .f32 := constant S_ .f32 0x00000000#32

def expSumV (x : FVec F S8192x512 .f32) (lab : IVec S8192 32) : FVec F S8192 .f32 :=
  Host.reduceAdd (expTerms x lab) expSumInit reducesTo_S8192x8192_S8192_d1 h_S_

def negZeroScalar : FVec F S_ .f32 := constant S_ .f32 0x00000000#32

def negZeroConv : FVec F S_ .f32 := id (negZeroScalar (F := F))

def negZeroFull : FVec F S8192x8192 .f32 :=
  broadcastInDim S8192x8192 ![] bcast_S_S8192x8192 (negZeroConv (F := F))

def negTerms (x : FVec F S8192x512 .f32) (lab : IVec S8192 32) : FVec F S8192x8192 .f32 :=
  select (negSelM x lab) (simT x) negZeroFull

def negSumInit : FVec F S_ .f32 := constant S_ .f32 0x00000000#32

def negSumV (x : FVec F S8192x512 .f32) (lab : IVec S8192 32) : FVec F S8192 .f32 :=
  Host.reduceAdd (negTerms x lab) negSumInit reducesTo_S8192x8192_S8192_d1 h_S_

def negOneCnt : IVec S8192 32 :=
  broadcastInDim S8192 ![] bcast_S_S8192 (constantI S_ 32 1#32)

def negCntClamped (x : FVec F S8192x512 .f32) (lab : IVec S8192 32) : IVec S8192 32 :=
  maxsi (negCntV x lab) negOneCnt

def negCntF (x : FVec F S8192x512 .f32) (lab : IVec S8192 32) : FVec F S8192 .f32 :=
  sitofp .f32 (negCntClamped x lab)

def negMean (x : FVec F S8192x512 .f32) (lab : IVec S8192 32) : FVec F S8192 .f32 :=
  Host.divf (negSumV x lab) (negCntF x lab)

def negZeroCnt : IVec S8192 32 :=
  broadcastInDim S8192 ![] bcast_S_S8192 (constantI S_ 32 0#32)

def negAny (x : FVec F S8192x512 .f32) (lab : IVec S8192 32) : IVec S8192 1 :=
  cmpi .sgt (negCntV x lab) negZeroCnt

def logTerm (x : FVec F S8192x512 .f32) (lab : IVec S8192 32) : FVec F S8192 .f32 :=
  Host.log1p (expSumV x lab)

def inv20Scalar : FVec F S_ .f32 := constant S_ .f32 0x3D4CCCCD#32

def inv20V : FVec F S8192 .f32 :=
  broadcastInDim S8192 ![] bcast_S_S8192 (inv20Scalar (F := F))

def logScaled (x : FVec F S8192x512 .f32) (lab : IVec S8192 32) : FVec F S8192 .f32 :=
  mulf inv20V (logTerm x lab)

def negBody (x : FVec F S8192x512 .f32) (lab : IVec S8192 32) : FVec F S8192 .f32 :=
  addf (logScaled x lab) (negMean x lab)

def negLossZeroScalar : FVec F S_ .f32 := constant S_ .f32 0x00000000#32

def negLossZeroConv : FVec F S_ .f32 := id (negLossZeroScalar (F := F))

def negLossZero : FVec F S8192 .f32 :=
  broadcastInDim S8192 ![] bcast_S_S8192 (negLossZeroConv (F := F))

def negLoss (x : FVec F S8192x512 .f32) (lab : IVec S8192 32) : FVec F S8192 .f32 :=
  select (negAny x lab) (negBody x lab) negLossZero

def rowLossV (x : FVec F S8192x512 .f32) (lab : IVec S8192 32) : FVec F S8192 .f32 :=
  addf (posLoss x lab) (negLoss x lab)

def lossSumInit : FVec F S_ .f32 := constant S_ .f32 0x00000000#32

def lossSum (x : FVec F S8192x512 .f32) (lab : IVec S8192 32) : FVec F S_ .f32 :=
  Host.reduceAdd (rowLossV x lab) lossSumInit reducesTo_S8192_S_d0 h_S_

def nRowsScalar : FVec F S_ .f32 := constant S_ .f32 0x46000000#32

def lossOut (x : FVec F S8192x512 .f32) (lab : IVec S8192 32) : FVec F S_ .f32 :=
  Host.divf (lossSum x lab) nRowsScalar

def twoScalar : IVec S_ 32 := constantI S_ 32 2#32

def twoConv : IVec S_ 32 := id twoScalar

def twoV : IVec S8192 32 := broadcastInDim S8192 ![] bcast_S_S8192 twoConv

def quotTrunc (v : IVec S8192 32) : IVec S8192 32 := Host.divsi v twoV

def signDividend (v : IVec S8192 32) : IVec S8192 32 := signi v

def signDivisor : IVec S_ 32 := signi twoConv

def signDivisorV : IVec S8192 32 := broadcastInDim S8192 ![] bcast_S_S8192 signDivisor

def signsDiffer (v : IVec S8192 32) : IVec S8192 1 := cmpi .ne (signDividend v) signDivisorV

def twoV' : IVec S8192 32 := broadcastInDim S8192 ![] bcast_S_S8192 twoConv

def remTrunc (v : IVec S8192 32) : IVec S8192 32 := Host.remsi v twoV'

def remZeroScalar : IVec S_ 32 := constantI S_ 32 0#32

def remZeroV : IVec S8192 32 := broadcastInDim S8192 ![] bcast_S_S8192 remZeroScalar

def remNonzero (v : IVec S8192 32) : IVec S8192 1 := cmpi .ne (remTrunc v) remZeroV

def needsFloor (v : IVec S8192 32) : IVec S8192 1 := andi (signsDiffer v) (remNonzero v)

def floorOneScalar : IVec S_ 32 := constantI S_ 32 1#32

def floorOneV : IVec S8192 32 := broadcastInDim S8192 ![] bcast_S_S8192 floorOneScalar

def quotLessOne (v : IVec S8192 32) : IVec S8192 32 := subi (quotTrunc v) floorOneV

def floorDiv2 (v : IVec S8192 32) : IVec S8192 32 :=
  select (needsFloor v) (quotLessOne v) (quotTrunc v)

def halfCntV (x : FVec F S8192x512 .f32) (lab : IVec S8192 32) : IVec S8192 32 :=
  floorDiv2 (negCntV x lab)

def tripInit : IVec S_ 32 := constantI S_ 32 0#32

def tripOut (x : FVec F S8192x512 .f32) (lab : IVec S8192 32) : IVec S_ 32 :=
  Host.reduce IntOp.addi (halfCntV x lab) tripInit reducesTo_S8192_S_d0 h_S_

def zeroOut : IVec S_ 32 := constantI S_ 32 0#32

end Cert.ReferenceIdeal.Stages

end
-- ==== Proof.RefRun.lean ====
/- The reference program's run: its operations in order, and each result as a composition of stages of the two arguments. -/
import proofs.«180551_j55817394979145_1_alg».proof.Proof.Gen.ReferenceIdeal
import proofs.«180551_j55817394979145_1_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsFirst : List (HloOp τ sig (Elt F)) :=
  [ unary main_arg0 main_v0 ((transpose S512x8192 [1, 0] · transposes_S8192x512_S512x8192_1_0) : (⟨S8192x512, .f32⟩ : BufTy).Contents (Elt F) → (⟨S512x8192, .f32⟩ : BufTy).Contents (Elt F)),
    binary main_arg0 main_v0 main_v1 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    unary main_arg1 main_v2 (broadcastInDim S8192x1 ![0] bcast_S8192_S8192x1_0 : (⟨S8192, .i32⟩ : BufTy).Contents (Elt F) → (⟨S8192x1, .i32⟩ : BufTy).Contents (Elt F)),
    unary main_arg1 main_v3 (broadcastInDim S1x8192 ![1] bcast_S8192_S1x8192_1 : (⟨S8192, .i32⟩ : BufTy).Contents (Elt F) → (⟨S1x8192, .i32⟩ : BufTy).Contents (Elt F)),
    unary main_v2 main_v4 (broadcastInDim S8192x8192 ![0, 1] bcast_S8192x1_S8192x8192_0_1 : (⟨S8192x1, .i32⟩ : BufTy).Contents (Elt F) → (⟨S8192x8192, .i32⟩ : BufTy).Contents (Elt F)),
    unary main_v3 main_v5 (broadcastInDim S8192x8192 ![0, 1] bcast_S1x8192_S8192x8192_0_1 : (⟨S1x8192, .i32⟩ : BufTy).Contents (Elt F) → (⟨S8192x8192, .i32⟩ : BufTy).Contents (Elt F)),
    binary main_v4 main_v5 main_v6 (cmpi .eq : (⟨S8192x8192, .i32⟩ : BufTy).Contents (Elt F) → (⟨S8192x8192, .i32⟩ : BufTy).Contents (Elt F) → (⟨S8192x8192, .i1⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    unary main_v11 main_v12 (noti : (⟨S8192x8192, .i1⟩ : BufTy).Contents (Elt F) → (⟨S8192x8192, .i1⟩ : BufTy).Contents (Elt F)),
    binary main_v6 main_v12 main_v13 (andi : (⟨S8192x8192, .i1⟩ : BufTy).Contents (Elt F) → (⟨S8192x8192, .i1⟩ : BufTy).Contents (Elt F) → (⟨S8192x8192, .i1⟩ : BufTy).Contents (Elt F)),
    unary main_v6 main_v14 (noti : (⟨S8192x8192, .i1⟩ : BufTy).Contents (Elt F) → (⟨S8192x8192, .i1⟩ : BufTy).Contents (Elt F)),
    nullary main_cst (constant S_ .f32 0xCE6E6B28#32),
    unary main_cst main_call0_v0 (id : (⟨S_, .f32⟩ : BufTy).Contents (Elt F) → (⟨S_, .f32⟩ : BufTy).Contents (Elt F)),
    unary main_call0_v0 main_call0_v1 (broadcastInDim S8192x8192 ![] bcast_S_S8192x8192 : (⟨S_, .f32⟩ : BufTy).Contents (Elt F) → (⟨S8192x8192, .f32⟩ : BufTy).Contents (Elt F)),
    ternary main_v13 main_v1 main_call0_v1 main_v15 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0xFF800000#32),
    binary main_v15 main_cst_0 main_v16 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0x4E6E6B28#32),
    unary main_cst_1 main_call1_v0 (id : (⟨S_, .f32⟩ : BufTy).Contents (Elt F) → (⟨S_, .f32⟩ : BufTy).Contents (Elt F)),
    unary main_call1_v0 main_call1_v1 (broadcastInDim S8192x8192 ![] bcast_S_S8192x8192 : (⟨S_, .f32⟩ : BufTy).Contents (Elt F) → (⟨S8192x8192, .f32⟩ : BufTy).Contents (Elt F)),
    ternary main_v14 main_v1 main_call1_v1 main_v17 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x7F800000#32),
    binary main_v17 main_cst_2 main_v18 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v16 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v1 main_v20 main_v21 (cmpf .olt : (⟨S8192x8192, .f32⟩ : BufTy).Contents (Elt F) → (⟨S8192x8192, .f32⟩ : BufTy).Contents (Elt F) → (⟨S8192x8192, .i1⟩ : BufTy).Contents (Elt F)),
    binary main_v14 main_v21 main_v22 (andi : (⟨S8192x8192, .i1⟩ : BufTy).Contents (Elt F) → (⟨S8192x8192, .i1⟩ : BufTy).Contents (Elt F) → (⟨S8192x8192, .i1⟩ : BufTy).Contents (Elt F)),
    unary main_v18 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8192 ![0, 1] bcast_S8192x1_S8192x8192_0_1 : (⟨S8192x1, .f32⟩ : BufTy).Contents (Elt F) → (⟨S8192x8192, .f32⟩ : BufTy).Contents (Elt F)),
    binary main_v1 main_v24 main_v25 (cmpf .ogt : (⟨S8192x8192, .f32⟩ : BufTy).Contents (Elt F) → (⟨S8192x8192, .f32⟩ : BufTy).Contents (Elt F) → (⟨S8192x8192, .i1⟩ : BufTy).Contents (Elt F)),
    binary main_v13 main_v25 main_v26 (andi : (⟨S8192x8192, .i1⟩ : BufTy).Contents (Elt F) → (⟨S8192x8192, .i1⟩ : BufTy).Contents (Elt F) → (⟨S8192x8192, .i1⟩ : BufTy).Contents (Elt F)),
    unary main_v26 main_v27 ((extui 32 · natLt_1_32) : (⟨S8192x8192, .i1⟩ : BufTy).Contents (Elt F) → (⟨S8192x8192, .i32⟩ : BufTy).Contents (Elt F)),
    nullary main_c_3 (constantI S_ 32 0#32),
    binary main_v27 main_c_3 main_v28 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    unary main_v22 main_v29 ((extui 32 · natLt_1_32) : (⟨S8192x8192, .i1⟩ : BufTy).Contents (Elt F) → (⟨S8192x8192, .i32⟩ : BufTy).Contents (Elt F)),
    nullary main_c_4 (constantI S_ 32 0#32),
    binary main_v29 main_c_4 main_v30 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_cst_5 (constant S_ .f32 0x3F800000#32),
    unary main_cst_5 main_v31 (broadcastInDim S8192x8192 ![] bcast_S_S8192x8192 : (⟨S_, .f32⟩ : BufTy).Contents (Elt F) → (⟨S8192x8192, .f32⟩ : BufTy).Contents (Elt F)),
    binary main_v31 main_v1 main_v32 (subf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x00000000#32),
    unary main_cst_6 main_call2_v0 (id : (⟨S_, .f32⟩ : BufTy).Contents (Elt F) → (⟨S_, .f32⟩ : BufTy).Contents (Elt F)),
    unary main_call2_v0 main_call2_v1 (broadcastInDim S8192x8192 ![] bcast_S_S8192x8192 : (⟨S_, .f32⟩ : BufTy).Contents (Elt F) → (⟨S8192x8192, .f32⟩ : BufTy).Contents (Elt F)),
    ternary main_v26 main_v32 main_call2_v1 main_v33 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x00000000#32),
    binary main_v33 main_cst_7 main_v34 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_8 (constantI S_ 32 0#32),
    unary main_c_8 main_v35 (broadcastInDim S8192 ![] bcast_S_S8192 : (⟨S_, .i32⟩ : BufTy).Contents (Elt F) → (⟨S8192, .i32⟩ : BufTy).Contents (Elt F)),
    binary main_v28 main_v35 main_v36 (cmpi .sgt : (⟨S8192, .i32⟩ : BufTy).Contents (Elt F) → (⟨S8192, .i32⟩ : BufTy).Contents (Elt F) → (⟨S8192, .i1⟩ : BufTy).Contents (Elt F)),
    nullary main_c_9 (constantI S_ 32 1#32),
    unary main_c_9 main_v37 (broadcastInDim S8192 ![] bcast_S_S8192 : (⟨S_, .i32⟩ : BufTy).Contents (Elt F) → (⟨S8192, .i32⟩ : BufTy).Contents (Elt F)),
    binary main_v28 main_v37 main_v38 (maxsi : (⟨S8192, .i32⟩ : BufTy).Contents (Elt F) → (⟨S8192, .i32⟩ : BufTy).Contents (Elt F) → (⟨S8192, .i32⟩ : BufTy).Contents (Elt F)),
    unary main_v38 main_v39 (sitofp .f32 : (⟨S8192, .i32⟩ : BufTy).Contents (Elt F) → (⟨S8192, .f32⟩ : BufTy).Contents (Elt F)),
    binary main_v34 main_v39 main_v40 (Host.divf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    unary main_cst_10 main_call3_v0 (id : (⟨S_, .f32⟩ : BufTy).Contents (Elt F) → (⟨S_, .f32⟩ : BufTy).Contents (Elt F)),
    unary main_call3_v0 main_call3_v1 (broadcastInDim S8192 ![] bcast_S_S8192 : (⟨S_, .f32⟩ : BufTy).Contents (Elt F) → (⟨S8192, .f32⟩ : BufTy).Contents (Elt F)),
    ternary main_v36 main_v40 main_call3_v1 main_v41 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_cst_11 (constant S_ .f32 0x3F000000#32),
    unary main_cst_11 main_v42 (broadcastInDim S8192x8192 ![] bcast_S_S8192x8192 : (⟨S_, .f32⟩ : BufTy).Contents (Elt F) → (⟨S8192x8192, .f32⟩ : BufTy).Contents (Elt F)),
    binary main_v1 main_v42 main_v43 (subf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x42200000#32),
    unary main_cst_12 main_v44 (broadcastInDim S8192x8192 ![] bcast_S_S8192x8192 : (⟨S_, .f32⟩ : BufTy).Contents (Elt F) → (⟨S8192x8192, .f32⟩ : BufTy).Contents (Elt F)) ]

abbrev opsSecond : List (HloOp τ sig (Elt F)) :=
  [ binary main_v44 main_v43 main_v45 (mulf : (⟨S8192x8192, .f32⟩ : BufTy).Contents (Elt F) → (⟨S8192x8192, .f32⟩ : BufTy).Contents (Elt F) → (⟨S8192x8192, .f32⟩ : BufTy).Contents (Elt F)),
    unary main_v45 main_v46 (Host.exp : (⟨S8192x8192, .f32⟩ : BufTy).Contents (Elt F) → (⟨S8192x8192, .f32⟩ : BufTy).Contents (Elt F)),
    nullary main_cst_13 (constant S_ .f32 0x00000000#32),
    unary main_cst_13 main_call4_v0 (id : (⟨S_, .f32⟩ : BufTy).Contents (Elt F) → (⟨S_, .f32⟩ : BufTy).Contents (Elt F)),
    unary main_call4_v0 main_call4_v1 (broadcastInDim S8192x8192 ![] bcast_S_S8192x8192 : (⟨S_, .f32⟩ : BufTy).Contents (Elt F) → (⟨S8192x8192, .f32⟩ : BufTy).Contents (Elt F)),
    ternary main_v22 main_v46 main_call4_v1 main_v47 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v47 main_cst_14 main_v48 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_15 (constant S_ .f32 0x00000000#32),
    unary main_cst_15 main_call5_v0 (id : (⟨S_, .f32⟩ : BufTy).Contents (Elt F) → (⟨S_, .f32⟩ : BufTy).Contents (Elt F)),
    unary main_call5_v0 main_call5_v1 (broadcastInDim S8192x8192 ![] bcast_S_S8192x8192 : (⟨S_, .f32⟩ : BufTy).Contents (Elt F) → (⟨S8192x8192, .f32⟩ : BufTy).Contents (Elt F)),
    ternary main_v22 main_v1 main_call5_v1 main_v49 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_16 (constant S_ .f32 0x00000000#32),
    binary main_v49 main_cst_16 main_v50 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_17 (constantI S_ 32 1#32),
    unary main_c_17 main_v51 (broadcastInDim S8192 ![] bcast_S_S8192 : (⟨S_, .i32⟩ : BufTy).Contents (Elt F) → (⟨S8192, .i32⟩ : BufTy).Contents (Elt F)),
    binary main_v30 main_v51 main_v52 (maxsi : (⟨S8192, .i32⟩ : BufTy).Contents (Elt F) → (⟨S8192, .i32⟩ : BufTy).Contents (Elt F) → (⟨S8192, .i32⟩ : BufTy).Contents (Elt F)),
    unary main_v52 main_v53 (sitofp .f32 : (⟨S8192, .i32⟩ : BufTy).Contents (Elt F) → (⟨S8192, .f32⟩ : BufTy).Contents (Elt F)),
    binary main_v50 main_v53 main_v54 (Host.divf : (⟨S8192, .f32⟩ : BufTy).Contents (Elt F) → (⟨S8192, .f32⟩ : BufTy).Contents (Elt F) → (⟨S8192, .f32⟩ : BufTy).Contents (Elt F)),
    nullary main_c_18 (constantI S_ 32 0#32),
    unary main_c_18 main_v55 (broadcastInDim S8192 ![] bcast_S_S8192 : (⟨S_, .i32⟩ : BufTy).Contents (Elt F) → (⟨S8192, .i32⟩ : BufTy).Contents (Elt F)),
    binary main_v30 main_v55 main_v56 (cmpi .sgt : (⟨S8192, .i32⟩ : BufTy).Contents (Elt F) → (⟨S8192, .i32⟩ : BufTy).Contents (Elt F) → (⟨S8192, .i1⟩ : BufTy).Contents (Elt F)),
    unary main_v48 main_v57 (Host.log1p : (⟨S8192, .f32⟩ : BufTy).Contents (Elt F) → (⟨S8192, .f32⟩ : BufTy).Contents (Elt F)),
    nullary main_cst_19 (constant S_ .f32 0x3D4CCCCD#32),
    unary main_cst_19 main_v58 (broadcastInDim S8192 ![] bcast_S_S8192 : (⟨S_, .f32⟩ : BufTy).Contents (Elt F) → (⟨S8192, .f32⟩ : BufTy).Contents (Elt F)),
    binary main_v58 main_v57 main_v59 (mulf : (⟨S8192, .f32⟩ : BufTy).Contents (Elt F) → (⟨S8192, .f32⟩ : BufTy).Contents (Elt F) → (⟨S8192, .f32⟩ : BufTy).Contents (Elt F)),
    binary main_v59 main_v54 main_v60 (addf : (⟨S8192, .f32⟩ : BufTy).Contents (Elt F) → (⟨S8192, .f32⟩ : BufTy).Contents (Elt F) → (⟨S8192, .f32⟩ : BufTy).Contents (Elt F)),
    nullary main_cst_20 (constant S_ .f32 0x00000000#32),
    unary main_cst_20 main_call6_v0 (id : (⟨S_, .f32⟩ : BufTy).Contents (Elt F) → (⟨S_, .f32⟩ : BufTy).Contents (Elt F)),
    unary main_call6_v0 main_call6_v1 (broadcastInDim S8192 ![] bcast_S_S8192 : (⟨S_, .f32⟩ : BufTy).Contents (Elt F) → (⟨S8192, .f32⟩ : BufTy).Contents (Elt F)),
    ternary main_v56 main_v60 main_call6_v1 main_v61 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    binary main_v41 main_v61 main_v62 (addf : (⟨S8192, .f32⟩ : BufTy).Contents (Elt F) → (⟨S8192, .f32⟩ : BufTy).Contents (Elt F) → (⟨S8192, .f32⟩ : BufTy).Contents (Elt F)),
    nullary main_cst_21 (constant S_ .f32 0x00000000#32),
    binary main_v62 main_cst_21 main_v63 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_22 (constant S_ .f32 0x46000000#32),
    binary main_v63 main_cst_22 main_v64 (Host.divf : (⟨S_, .f32⟩ : BufTy).Contents (Elt F) → (⟨S_, .f32⟩ : BufTy).Contents (Elt F) → (⟨S_, .f32⟩ : BufTy).Contents (Elt F)),
    nullary main_c_23 (constantI S_ 32 2#32),
    unary main_c_23 main_call7_v0 (id : (⟨S_, .i32⟩ : BufTy).Contents (Elt F) → (⟨S_, .i32⟩ : BufTy).Contents (Elt F)),
    unary main_call7_v0 main_call7_v1 (broadcastInDim S8192 ![] bcast_S_S8192 : (⟨S_, .i32⟩ : BufTy).Contents (Elt F) → (⟨S8192, .i32⟩ : BufTy).Contents (Elt F)),
    binary main_v30 main_call7_v1 main_call7_v2 (Host.divsi : (⟨S8192, .i32⟩ : BufTy).Contents (Elt F) → (⟨S8192, .i32⟩ : BufTy).Contents (Elt F) → (⟨S8192, .i32⟩ : BufTy).Contents (Elt F)),
    unary main_v30 main_call7_v3 (signi : (⟨S8192, .i32⟩ : BufTy).Contents (Elt F) → (⟨S8192, .i32⟩ : BufTy).Contents (Elt F)),
    unary main_call7_v0 main_call7_v4 (signi : (⟨S_, .i32⟩ : BufTy).Contents (Elt F) → (⟨S_, .i32⟩ : BufTy).Contents (Elt F)),
    unary main_call7_v4 main_call7_v5 (broadcastInDim S8192 ![] bcast_S_S8192 : (⟨S_, .i32⟩ : BufTy).Contents (Elt F) → (⟨S8192, .i32⟩ : BufTy).Contents (Elt F)),
    binary main_call7_v3 main_call7_v5 main_call7_v6 (cmpi .ne : (⟨S8192, .i32⟩ : BufTy).Contents (Elt F) → (⟨S8192, .i32⟩ : BufTy).Contents (Elt F) → (⟨S8192, .i1⟩ : BufTy).Contents (Elt F)),
    unary main_call7_v0 main_call7_v7 (broadcastInDim S8192 ![] bcast_S_S8192 : (⟨S_, .i32⟩ : BufTy).Contents (Elt F) → (⟨S8192, .i32⟩ : BufTy).Contents (Elt F)),
    binary main_v30 main_call7_v7 main_call7_v8 (Host.remsi : (⟨S8192, .i32⟩ : BufTy).Contents (Elt F) → (⟨S8192, .i32⟩ : BufTy).Contents (Elt F) → (⟨S8192, .i32⟩ : BufTy).Contents (Elt F)),
    nullary main_call7_c (constantI S_ 32 0#32),
    unary main_call7_c main_call7_v9 (broadcastInDim S8192 ![] bcast_S_S8192 : (⟨S_, .i32⟩ : BufTy).Contents (Elt F) → (⟨S8192, .i32⟩ : BufTy).Contents (Elt F)),
    binary main_call7_v8 main_call7_v9 main_call7_v10 (cmpi .ne : (⟨S8192, .i32⟩ : BufTy).Contents (Elt F) → (⟨S8192, .i32⟩ : BufTy).Contents (Elt F) → (⟨S8192, .i1⟩ : BufTy).Contents (Elt F)),
    binary main_call7_v6 main_call7_v10 main_call7_v11 (andi : (⟨S8192, .i1⟩ : BufTy).Contents (Elt F) → (⟨S8192, .i1⟩ : BufTy).Contents (Elt F) → (⟨S8192, .i1⟩ : BufTy).Contents (Elt F)),
    nullary main_call7_c_0 (constantI S_ 32 1#32),
    unary main_call7_c_0 main_call7_v12 (broadcastInDim S8192 ![] bcast_S_S8192 : (⟨S_, .i32⟩ : BufTy).Contents (Elt F) → (⟨S8192, .i32⟩ : BufTy).Contents (Elt F)),
    binary main_call7_v2 main_call7_v12 main_call7_v13 (subi : (⟨S8192, .i32⟩ : BufTy).Contents (Elt F) → (⟨S8192, .i32⟩ : BufTy).Contents (Elt F) → (⟨S8192, .i32⟩ : BufTy).Contents (Elt F)),
    ternary main_call7_v11 main_call7_v13 main_call7_v2 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_24 (constantI S_ 32 0#32),
    binary main_v65 main_c_24 main_v66 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_25 (constantI S_ 32 0#32) ]

abbrev ops : List (HloOp τ sig (Elt F)) := opsFirst ++ opsSecond

set_option maxRecDepth 8192 in
set_option maxHeartbeats 4000000 in

theorem main_part0_eq (c : Dev nD) : main_part0 (F := F) c = seq opsFirst := by
  simp only [main_part0, fn_where.body, fn_where_0.body, seq, bind_assoc, pure_bind]
  rfl

set_option maxRecDepth 8192 in
set_option maxHeartbeats 4000000 in

theorem main_part1_eq (c : Dev nD) : main_part1 (F := F) c = seq opsSecond := by
  simp only [main_part1, fn_where.body, fn_where_0.body, fn_where_1.body, fn_floor_divide.body, seq, bind_assoc, pure_bind]
  rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

theorem opsFirst_sub : (opsFirst : List (HloOp τ sig (Elt F))).Forall fun op => op.bufs ⊆ tcRefs τ sig :=
  ⟨unary_bufs_sub .., binary_bufs_sub .., unary_bufs_sub .., unary_bufs_sub .., unary_bufs_sub .., unary_bufs_sub ..,
    binary_bufs_sub .., nullary_bufs_sub .., nullary_bufs_sub .., nullary_bufs_sub .., unary_bufs_sub .., binary_bufs_sub ..,
    binary_bufs_sub .., unary_bufs_sub .., binary_bufs_sub .., unary_bufs_sub .., nullary_bufs_sub .., unary_bufs_sub ..,
    unary_bufs_sub .., ternary_bufs_sub .., nullary_bufs_sub .., binary_bufs_sub .., nullary_bufs_sub .., unary_bufs_sub ..,
    unary_bufs_sub .., ternary_bufs_sub .., nullary_bufs_sub .., binary_bufs_sub .., unary_bufs_sub .., unary_bufs_sub ..,
    binary_bufs_sub .., binary_bufs_sub .., unary_bufs_sub .., unary_bufs_sub .., binary_bufs_sub .., binary_bufs_sub ..,
    unary_bufs_sub .., nullary_bufs_sub .., binary_bufs_sub .., unary_bufs_sub .., nullary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    nullary_bufs_sub .., unary_bufs_sub .., binary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub ..⟩

set_option maxRecDepth 8192 in

theorem opsSecond_sub : (opsSecond : List (HloOp τ sig (Elt F))).Forall fun op => op.bufs ⊆ tcRefs τ sig :=
  ⟨binary_bufs_sub .., unary_bufs_sub .., nullary_bufs_sub .., unary_bufs_sub .., unary_bufs_sub .., ternary_bufs_sub ..,
    nullary_bufs_sub .., binary_bufs_sub .., nullary_bufs_sub .., unary_bufs_sub .., unary_bufs_sub .., ternary_bufs_sub ..,
    nullary_bufs_sub .., binary_bufs_sub .., nullary_bufs_sub .., unary_bufs_sub .., binary_bufs_sub .., unary_bufs_sub ..,
    binary_bufs_sub .., nullary_bufs_sub .., unary_bufs_sub .., binary_bufs_sub .., unary_bufs_sub .., nullary_bufs_sub ..,
    unary_bufs_sub .., binary_bufs_sub .., binary_bufs_sub .., nullary_bufs_sub .., unary_bufs_sub .., unary_bufs_sub ..,
    ternary_bufs_sub .., binary_bufs_sub .., nullary_bufs_sub .., binary_bufs_sub .., nullary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., binary_bufs_sub .., nullary_bufs_sub ..⟩

theorem ops_sub : (ops : List (HloOp τ sig (Elt F))).Forall fun op => op.bufs ⊆ tcRefs τ sig :=
  List.forall_append.mpr ⟨opsFirst_sub, opsSecond_sub⟩

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

section
set_option maxRecDepth 65536
set_option maxHeartbeats 40000000

theorem first_sim (V : Valuation τ sig (Elt F)) :
    after opsFirst V (main_v1 : DevRef τ sig) = Stages.simT (V (main_arg0 : DevRef τ sig)) := by
  after_results_simp
  rfl

theorem first_negSel (V : Valuation τ sig (Elt F)) :
    after opsFirst V (main_v22 : DevRef τ sig) = Stages.negSelM (V (main_arg0 : DevRef τ sig)) (V (main_arg1 : DevRef τ sig)) := by
  after_results_simp
  rfl

theorem first_negCnt (V : Valuation τ sig (Elt F)) :
    after opsFirst V (main_v30 : DevRef τ sig) = Stages.negCntV (V (main_arg0 : DevRef τ sig)) (V (main_arg1 : DevRef τ sig)) := by
  after_results_simp
  rfl

theorem first_posLoss (V : Valuation τ sig (Elt F)) :
    after opsFirst V (main_v41 : DevRef τ sig) = Stages.posLoss (V (main_arg0 : DevRef τ sig)) (V (main_arg1 : DevRef τ sig)) := by
  after_results_simp
  rfl

theorem first_simMinusHalf (V : Valuation τ sig (Elt F)) :
    after opsFirst V (main_v43 : DevRef τ sig) = Stages.simMinusHalf (V (main_arg0 : DevRef τ sig)) := by
  after_results_simp
  rfl

theorem first_forty (V : Valuation τ sig (Elt F)) :
    after opsFirst V (main_v44 : DevRef τ sig) = (Stages.fortyFull (F := F)) := by
  after_results_simp
  rfl

theorem first_arg0 (V : Valuation τ sig (Elt F)) : after opsFirst V (main_arg0 : DevRef τ sig) = V (main_arg0 : DevRef τ sig) := by
  after_results_simp

theorem first_arg1 (V : Valuation τ sig (Elt F)) : after opsFirst V (main_arg1 : DevRef τ sig) = V (main_arg1 : DevRef τ sig) := by
  after_results_simp

theorem second_loss (W : Valuation τ sig (Elt F)) (x : FVec F S8192x512 .f32) (lab : IVec S8192 32)
    (hsim : W (main_v1 : DevRef τ sig) = Stages.simT x)
    (hsel : W (main_v22 : DevRef τ sig) = Stages.negSelM x lab)
    (hcnt : W (main_v30 : DevRef τ sig) = Stages.negCntV x lab)
    (hpos : W (main_v41 : DevRef τ sig) = Stages.posLoss x lab)
    (hsub : W (main_v43 : DevRef τ sig) = Stages.simMinusHalf x)
    (hforty : W (main_v44 : DevRef τ sig) = (Stages.fortyFull (F := F))) :
    after opsSecond W (main_v64 : DevRef τ sig) = Stages.lossOut x lab := by
  after_results_simp
  rw [hsim, hsel, hcnt, hpos, hsub, hforty]
  rfl

theorem second_trip (W : Valuation τ sig (Elt F)) (x : FVec F S8192x512 .f32) (lab : IVec S8192 32)
    (hcnt : W (main_v30 : DevRef τ sig) = Stages.negCntV x lab) :
    after opsSecond W (main_v66 : DevRef τ sig) = Stages.tripOut x lab := by
  after_results_simp
  rw [hcnt]
  rfl

theorem second_zero (W : Valuation τ sig (Elt F)) :
    after opsSecond W (main_c_25 : DevRef τ sig) = Stages.zeroOut := by
  after_results_simp
  rfl

theorem second_arg0 (W : Valuation τ sig (Elt F)) : after opsSecond W (main_arg0 : DevRef τ sig) = W (main_arg0 : DevRef τ sig) := by
  after_results_simp

theorem second_arg1 (W : Valuation τ sig (Elt F)) : after opsSecond W (main_arg1 : DevRef τ sig) = W (main_arg1 : DevRef τ sig) := by
  after_results_simp

end

theorem after_loss (V : Valuation τ sig (Elt F)) :
    after ops V (main_v64 : DevRef τ sig) = Stages.lossOut (V (main_arg0 : DevRef τ sig)) (V (main_arg1 : DevRef τ sig)) := by
  rw [show (ops : List (HloOp τ sig (Elt F))) = opsFirst ++ opsSecond from rfl, after_two]
  exact second_loss _ _ _ (first_sim V) (first_negSel V) (first_negCnt V) (first_posLoss V) (first_simMinusHalf V) (first_forty V)

theorem after_trip (V : Valuation τ sig (Elt F)) :
    after ops V (main_v66 : DevRef τ sig) = Stages.tripOut (V (main_arg0 : DevRef τ sig)) (V (main_arg1 : DevRef τ sig)) := by
  rw [show (ops : List (HloOp τ sig (Elt F))) = opsFirst ++ opsSecond from rfl, after_two]
  exact second_trip _ _ _ (first_negCnt V)

theorem after_zero (V : Valuation τ sig (Elt F)) : after ops V (main_c_25 : DevRef τ sig) = Stages.zeroOut := by
  rw [show (ops : List (HloOp τ sig (Elt F))) = opsFirst ++ opsSecond from rfl, after_two]
  exact second_zero _

theorem after_arg0 (V : Valuation τ sig (Elt F)) : after ops V (main_arg0 : DevRef τ sig) = V (main_arg0 : DevRef τ sig) := by
  rw [show (ops : List (HloOp τ sig (Elt F))) = opsFirst ++ opsSecond from rfl, after_two, second_arg0, first_arg0]

theorem after_arg1 (V : Valuation τ sig (Elt F)) : after ops V (main_arg1 : DevRef τ sig) = V (main_arg1 : DevRef τ sig) := by
  rw [show (ops : List (HloOp τ sig (Elt F))) = opsFirst ++ opsSecond from rfl, after_two, second_arg1, first_arg1]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v64)
          = Stages.lossOut (m ((c.tc : Thread nD τ).loc main_arg0)) (m ((c.tc : Thread nD τ).loc main_arg1))
      ∧ r.2.mem ((c.tc : Thread nD τ).loc main_v66)
          = Stages.tripOut (m ((c.tc : Thread nD τ).loc main_arg0)) (m ((c.tc : Thread nD τ).loc main_arg1))
      ∧ r.2.mem ((c.tc : Thread nD τ).loc main_c_25) = Stages.zeroOut
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v64).trans (after_loss _), (h c main_v66).trans (after_trip _),
      (h c main_c_25).trans (after_zero _), (h c main_arg0).trans (after_arg0 _), (h c main_arg1).trans (after_arg1 _)⟩)
    (run_all m ρ)

end Cert.ReferenceIdeal.Hand

end
-- ==== Proof.LibPlainProduct.lean ====
/- The product of an M x K and a K x N array, entry by entry, is a sum over k. -/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

abbrev contracted (M K N : ℕ) : (DotDims.plain M K N).contr.Idx ≃ Fin K :=
  contrEquiv1 (DotDims.plain M K N) K rfl rfl

theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibBroadcastRead.lean ====
/- A vector laid out as a row or as a column, and repeated down the rows or along the columns, read at an index. -/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.LibMaskCount.lean ====
/- A sum over the indices of a rank-1 shape is a sum over Fin n. -/
import Idealize.ShloMosaic.Lib.StableHlo.Predicate
import Idealize.ShloMosaic.Lib.ValueIdx

namespace MaskCount

open Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp idxEquiv1.symm f).symm

end MaskCount
-- ==== Proof.RefRead.lean ====
/- The reference's stages read at an index: each is the specification's quantity of the rows and labels. -/
import proofs.«180551_j55817394979145_1_alg».proof.Proof.RefStages
import proofs.«180551_j55817394979145_1_alg».proof.Proof.TripletSpec
import proofs.«180551_j55817394979145_1_alg».proof.Proof.TripletArrays
import proofs.«180551_j55817394979145_1_alg».proof.Proof.LibPlainProduct
import proofs.«180551_j55817394979145_1_alg».proof.Proof.LibBroadcastRead
import proofs.«180551_j55817394979145_1_alg».proof.Proof.LibMaskCount
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.ReferenceIdeal.Read

open Idealize.ShloMosaic Idealize.ShloMosaic.ValueIdx Cert.ReferenceIdeal Cert.ReferenceIdeal.Facts₀
open Cert.ReferenceIdeal.Stages

theorem select_of_iff {α : Type} (c : BitVec 1) (a b : α) (p : Prop) [Decidable p] (h : c = 1#1 ↔ p) :
    Scalar.select c a b = if p then a else b := by
  by_cases hp : p
  · rw [if_pos hp]; exact if_pos (h.2 hp)
  · rw [if_neg hp]; exact if_neg (fun hc => hp (h.1 hc))

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem not_eq_one_iff (a : BitVec 1) : ~~~a = 1#1 ↔ ¬ a = 1#1 := by
  rcases BitVec.eq_zero_or_eq_one a with rfl | rfl <;> decide

theorem cmp_olt_eq_one_iff (a b : EReal) : Ideal.cmp .olt a b = 1#1 ↔ a < b := by
  unfold Ideal.cmp
  rw [StableHlo.Predicate.ofBool_eq_one_iff, decide_eq_true_eq]

theorem cmp_ogt_eq_one_iff (a b : EReal) : Ideal.cmp .ogt a b = 1#1 ↔ b < a := by
  unfold Ideal.cmp
  rw [StableHlo.Predicate.ofBool_eq_one_iff, decide_eq_true_eq]

section Pointwise
variable {s : Shape} {w : ℕ}

theorem andi_apply (a b : IVec s w) (i : s.Idx) : andi a b i = IntOp.andi (a i) (b i) := rfl
theorem cmpi_apply (p : CmpIPredicate) (a b : IVec s w) (i : s.Idx) : cmpi p a b i = IntOp.cmpi p (a i) (b i) := rfl
theorem maxsi_apply (a b : IVec s w) (i : s.Idx) : maxsi a b i = IntOp.maxsi (a i) (b i) := rfl
theorem constantI_apply (b : BitVec w) (i : s.Idx) : constantI s w b i = b := rfl
theorem hostExp_apply (a : FVec Ideal s .f32) (i : s.Idx) : Host.exp a i = Ideal.exp (a i) := rfl
theorem hostLog1p_apply (a : FVec Ideal s .f32) (i : s.Idx) : Host.log1p a i = Ideal.log1p (a i) := rfl
theorem cmpf_ideal_apply (p : CmpFPredicate) (a b : FVec Ideal s .f32) (i : s.Idx) :
    cmpf p a b i = Ideal.cmp p (a i) (b i) := rfl
theorem sitofp_ideal_apply (a : IVec s 32) (i : s.Idx) :
    (sitofp .f32 a : FVec Ideal s .f32) i = (((a i).toInt : ℝ) : EReal) := rfl

end Pointwise

theorem toInt_ofNat_le (n : ℕ) (hn : n ≤ 8192) : (BitVec.ofNat 32 n).toInt = n :=
  StableHlo.Predicate.toInt_ofNat_small n (by omega)

theorem toNat_ofNat_le (n : ℕ) (hn : n ≤ 8192) : (BitVec.ofNat 32 n).toNat = n := by
  rw [BitVec.toNat_ofNat]; exact Nat.mod_eq_of_lt (by omega)

theorem sgt_zero_ofNat (n : ℕ) (hn : n ≤ 8192) : IntOp.cmpi .sgt (BitVec.ofNat 32 n) 0#32 = 1#1 ↔ 0 < n := by
  rw [StableHlo.Predicate.sgt_iff_toNat (by rw [toNat_ofNat_le n hn]; omega) (by decide), toNat_ofNat_le n hn]
  rfl

theorem maxsi_one_ofNat (n : ℕ) (hn : n ≤ 8192) : IntOp.maxsi (BitVec.ofNat 32 n) 1#32 = BitVec.ofNat 32 (max n 1) := by
  unfold IntOp.maxsi
  have h1 : (1#32 : BitVec 32).toInt = 1 := by decide
  by_cases h : 1 < n
  · rw [if_pos (by simp only [BitVec.slt, toInt_ofNat_le n hn, h1, decide_eq_true_eq]; omega), max_eq_left (by omega)]
  · rw [if_neg (by simp only [BitVec.slt, toInt_ofNat_le n hn, h1, decide_eq_true_eq]; omega), max_eq_right (by omega)]

theorem sitofp_maxsi_one (n : ℕ) (hn : n ≤ 8192) :
    (((IntOp.maxsi (BitVec.ofNat 32 n) 1#32).toInt : ℝ) : EReal) = max (TripletSpec.cnt n) TripletSpec.one := by
  rw [maxsi_one_ofNat n hn, toInt_ofNat_le _ (by omega : max n 1 ≤ 8192)]
  show _ = max (((n : ℝ) : EReal)) (Ideal.ofBits .f32 0x3F800000#32)
  rw [Ideal.ofBits_one_f32, ← EReal.coe_one, ← (EReal.coe_strictMono.monotone).map_max]
  norm_cast

theorem fold_addi_eq_ofNat_sum {ι : Type} (S : Finset ι) (f : ι → BitVec 32) :
    S.fold IntOp.addi 0#32 f = BitVec.ofNat 32 (∑ k ∈ S, (f k).toNat) := by
  induction S using Finset.cons_induction with
  | empty => rfl
  | cons a S ha ih =>
    rw [Finset.fold_cons, Finset.sum_cons, ih]
    show f a + BitVec.ofNat 32 _ = _
    rw [BitVec.ofNat_add, BitVec.ofNat_toNat, BitVec.setWidth_eq]

variable [Cert.ReferenceIdeal.Facts]

theorem reduces_d1 : S8192x8192.Reduces [1] S8192 := by decide

theorem lift_d1 (r c : Fin 8192) : reduces_d1.lift (ix1 r) c = ix2 r c := by
  funext a
  match a with
  | ⟨0, _⟩ => exact Fin.ext rfl
  | ⟨1, _⟩ => exact Fin.ext rfl

theorem ij_eq_ix2 (r c : Fin 8192) : StableHlo.Predicate.ij r c = ix2 r c := by
  funext a
  match a with
  | ⟨0, _⟩ => rfl
  | ⟨1, _⟩ => rfl

theorem overSquare_apply {α : Type} (v : S_.Idx → α) (j : S8192x8192.Idx) :
    broadcastInDim S8192x8192 ![] bcast_S_S8192x8192 v j = v ix0 :=
  broadcastInDim_scalar_apply _ v j

theorem overVector_apply {α : Type} (v : S_.Idx → α) (j : S8192.Idx) :
    broadcastInDim S8192 ![] bcast_S_S8192 v j = v ix0 :=
  broadcastInDim_scalar_apply _ v j

theorem alongColumns_apply {α : Type} (v : S8192.Idx → α) (r c : Fin 8192) :
    broadcastInDim S8192x8192 ![0, 1] bcast_S8192x1_S8192x8192_0_1
      (broadcastInDim S8192x1 ![0] bcast_S8192_S8192x1_0 v) (ix2 r c) = v (ix1 r) := by
  rw [LibBroadcastRead.col_along_apply, LibBroadcastRead.vec_as_col_apply]

theorem downRows_apply {α : Type} (v : S8192.Idx → α) (r c : Fin 8192) :
    broadcastInDim S8192x8192 ![0, 1] bcast_S1x8192_S8192x8192_0_1
      (broadcastInDim S1x8192 ![1] bcast_S8192_S1x8192_1 v) (ix2 r c) = v (ix1 c) := by
  rw [LibBroadcastRead.row_down_apply, LibBroadcastRead.vec_as_row_apply]

variable (x : FVec Ideal S8192x512 .f32) (lab : IVec S8192 32)

local notation "ee" => TripletSpec.rowsOf x
local notation "ll" => TripletSpec.labsOf lab

theorem dot_eq_plain : dot_S8192x512_S512x8192_S8192x8192_1_0_0_1_n_n = DotDims.plain 8192 512 8192 := rfl

theorem simT_apply (r c : Fin 8192) : simT (F := Ideal) x (ix2 r c) = TripletSpec.sim ee r c := by
  unfold simT Host.dotGeneral
  rw [dot_eq_plain, LibPlainProduct.dotGeneral_plain_apply]
  unfold TripletSpec.sim
  refine Finset.sum_congr rfl fun k _ => ?_
  unfold xT
  rw [transpose_ix2_apply]
  rfl

theorem sameLab_eq_one_iff (r c : Fin 8192) : sameLab lab (ix2 r c) = 1#1 ↔ ll r = ll c := by
  show IntOp.cmpi .eq (labColFull lab (ix2 r c)) (labRowFull lab (ix2 r c)) = 1#1 ↔ _
  unfold labColFull labCol labRowFull labRow
  rw [alongColumns_apply, downRows_apply]
  exact StableHlo.Predicate.cmpi_eq_iff

theorem eye_eq_one_iff (r c : Fin 8192) : eye (ix2 r c) = 1#1 ↔ r = c := by
  show IntOp.cmpi .eq (IntOp.addi (BitVec.ofNat 32 r.val) (eyeOffsetFull (ix2 r c))) (BitVec.ofNat 32 c.val) = 1#1 ↔ _
  unfold eyeOffsetFull
  rw [overSquare_apply, StableHlo.Predicate.cmpi_eq_iff]
  show BitVec.ofNat 32 r.val + 0#32 = BitVec.ofNat 32 c.val ↔ _
  rw [BitVec.add_zero]
  constructor
  · intro h
    have h' := congrArg BitVec.toNat h
    rw [toNat_ofNat_le _ (le_of_lt r.isLt), toNat_ofNat_le _ (le_of_lt c.isLt)] at h'
    exact Fin.ext h'
  · intro h; rw [h]

theorem posMask_eq_one_iff (r c : Fin 8192) : posMask lab (ix2 r c) = 1#1 ↔ TripletSpec.pos ll r c := by
  show IntOp.andi (sameLab lab (ix2 r c)) (~~~ (eye (ix2 r c))) = 1#1 ↔ _
  rw [andi_eq_one_iff, not_eq_one_iff, sameLab_eq_one_iff, eye_eq_one_iff]
  rfl

theorem negMask_eq_one_iff (r c : Fin 8192) : negMask lab (ix2 r c) = 1#1 ↔ TripletSpec.neg ll r c := by
  show ~~~ (sameLab lab (ix2 r c)) = 1#1 ↔ _
  rw [not_eq_one_iff, sameLab_eq_one_iff]
  rfl

theorem negBigFull_apply (j : S8192x8192.Idx) : negBigFull (F := Ideal) j = TripletSpec.negBig := by
  unfold negBigFull; rw [overSquare_apply]; rfl

theorem posBigFull_apply (j : S8192x8192.Idx) : posBigFull (F := Ideal) j = TripletSpec.posBig := by
  unfold posBigFull; rw [overSquare_apply]; rfl

theorem posFilled_apply (r c : Fin 8192) :
    posFilled x lab (ix2 r c) = if TripletSpec.pos ll r c then TripletSpec.sim ee r c else TripletSpec.negBig := by
  show Scalar.select (posMask lab (ix2 r c)) (simT x (ix2 r c)) (negBigFull (ix2 r c)) = _
  rw [select_of_iff _ _ _ _ (posMask_eq_one_iff lab r c), simT_apply, negBigFull_apply]

theorem negFilled_apply (r c : Fin 8192) :
    negFilled x lab (ix2 r c) = if TripletSpec.neg ll r c then TripletSpec.sim ee r c else TripletSpec.posBig := by
  show Scalar.select (negMask lab (ix2 r c)) (simT x (ix2 r c)) (posBigFull (ix2 r c)) = _
  rw [select_of_iff _ _ _ _ (negMask_eq_one_iff lab r c), simT_apply, posBigFull_apply]

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

theorem fold_max_bot {ι : Type} (S : Finset ι) (g : ι → EReal) : S.fold max ⊥ g = S.sup g := by
  induction S using Finset.cons_induction with
  | empty => rfl
  | cons a S ha ih => rw [Finset.fold_cons, Finset.sup_cons, ih]

theorem fold_min_top {ι : Type} (S : Finset ι) (g : ι → EReal) : S.fold min ⊤ g = S.inf g := by
  induction S using Finset.cons_induction with
  | empty => rfl
  | cons a S ha ih => rw [Finset.fold_cons, Finset.inf_cons, ih]

theorem maxPosV_apply (r : Fin 8192) : maxPosV x lab (ix1 r) = TripletSpec.maxPos ee ll r := by
  unfold maxPosV
  rw [Host.reduce_eq_fold_single FloatOps.maximumf _ _ reducesTo_S8192x8192_S8192_d1 reduces_d1 h_S_ (ix1 r)]
  show Finset.fold (max : EReal → EReal → EReal) (Ideal.ofBits .f32 0xFF800000#32)
    (fun c : Fin 8192 => posFilled x lab (reduces_d1.lift (ix1 r) c)) Finset.univ = _
  rw [ofBits_negInf, fold_max_bot]
  unfold TripletSpec.maxPos
  refine congrArg (Finset.sup Finset.univ) (funext fun c => ?_)
  rw [lift_d1, posFilled_apply]

theorem minNegV_apply (r : Fin 8192) : minNegV x lab (ix1 r) = TripletSpec.minNeg ee ll r := by
  unfold minNegV
  rw [Host.reduce_eq_fold_single FloatOps.minimumf _ _ reducesTo_S8192x8192_S8192_d1 reduces_d1 h_S_ (ix1 r)]
  show Finset.fold (min : EReal → EReal → EReal) (Ideal.ofBits .f32 0x7F800000#32)
    (fun c : Fin 8192 => negFilled x lab (reduces_d1.lift (ix1 r) c)) Finset.univ = _
  rw [ofBits_posInf, fold_min_top]
  unfold TripletSpec.minNeg
  refine congrArg (Finset.inf Finset.univ) (funext fun c => ?_)
  rw [lift_d1, negFilled_apply]

theorem negSelM_eq_one_iff (r c : Fin 8192) : negSelM x lab (ix2 r c) = 1#1 ↔ TripletSpec.negSel ee ll r c := by
  unfold negSelM
  rw [andi_apply, andi_eq_one_iff, negMask_eq_one_iff]
  unfold belowMax
  rw [cmpf_ideal_apply, cmp_olt_eq_one_iff, simT_apply]
  unfold maxPosFull maxPosCol
  rw [alongColumns_apply, maxPosV_apply]
  rfl

theorem posSelM_eq_one_iff (r c : Fin 8192) : posSelM x lab (ix2 r c) = 1#1 ↔ TripletSpec.posSel ee ll r c := by
  unfold posSelM
  rw [andi_apply, andi_eq_one_iff, posMask_eq_one_iff]
  unfold aboveMin
  rw [cmpf_ideal_apply, cmp_ogt_eq_one_iff, simT_apply]
  unfold minNegFull minNegCol
  rw [alongColumns_apply, minNegV_apply]
  rfl

theorem posCnt_le (r : Fin 8192) : TripletSpec.posCnt ee ll r ≤ 8192 :=
  le_of_le_of_eq (Finset.card_le_univ _) (Fintype.card_fin 8192)

theorem negCnt_le (r : Fin 8192) : TripletSpec.negCnt ee ll r ≤ 8192 :=
  le_of_le_of_eq (Finset.card_le_univ _) (Fintype.card_fin 8192)

theorem posCntV_apply (r : Fin 8192) : posCntV x lab (ix1 r) = BitVec.ofNat 32 (TripletSpec.posCnt ee ll r) := by
  apply BitVec.eq_of_toNat_eq
  unfold posCntV posSelWide posCntInit
  rw [StableHlo.Predicate.toNat_reduce_count_cols (by norm_num) (posSelM x lab) natLt_1_32
    reducesTo_S8192x8192_S8192_d1 h_S_ (ix1 r), toNat_ofNat_le _ (posCnt_le x lab r)]
  unfold TripletSpec.posCnt
  refine congrArg Finset.card (Finset.filter_congr fun q _ => ?_)
  exact (Eq.to_iff (congrArg (fun i => posSelM x lab i = 1#1) (ij_eq_ix2 r q))).trans (posSelM_eq_one_iff x lab r q)

theorem negCntV_apply (r : Fin 8192) : negCntV x lab (ix1 r) = BitVec.ofNat 32 (TripletSpec.negCnt ee ll r) := by
  apply BitVec.eq_of_toNat_eq
  unfold negCntV negSelWide negCntInit
  rw [StableHlo.Predicate.toNat_reduce_count_cols (by norm_num) (negSelM x lab) natLt_1_32
    reducesTo_S8192x8192_S8192_d1 h_S_ (ix1 r), toNat_ofNat_le _ (negCnt_le x lab r)]
  unfold TripletSpec.negCnt
  refine congrArg Finset.card (Finset.filter_congr fun q _ => ?_)
  exact (Eq.to_iff (congrArg (fun i => negSelM x lab i = 1#1) (ij_eq_ix2 r q))).trans (negSelM_eq_one_iff x lab r q)

theorem rowSum_apply (X : FVec Ideal S8192x8192 .f32) (r : Fin 8192) :
    Host.reduceAdd X (constant (F := Ideal) S_ .f32 0x00000000#32) reducesTo_S8192x8192_S8192_d1 h_S_ (ix1 r)
      = ∑ c : Fin 8192, X (ix2 r c) := by
  rw [hostReduceAdd_apply, Ideal.hostReduceAdd_single reducesTo_S8192x8192_S8192_d1 reduces_d1, constant_apply,
    Ideal.ofBits_zero_f32, zero_add]
  exact Finset.sum_congr rfl fun c _ => congrArg X (lift_d1 r c)

theorem zeroOverSquare_apply (j : S8192x8192.Idx) :
    broadcastInDim S8192x8192 ![] bcast_S_S8192x8192 (id (constant (F := Ideal) S_ .f32 0x00000000#32)) j = 0 := by
  rw [overSquare_apply, id, constant_apply, Ideal.ofBits_zero_f32]

theorem zeroOverVector_apply (j : S8192.Idx) :
    broadcastInDim S8192 ![] bcast_S_S8192 (id (constant (F := Ideal) S_ .f32 0x00000000#32)) j = 0 := by
  rw [overVector_apply, id, constant_apply, Ideal.ofBits_zero_f32]

theorem posTerms_apply (r c : Fin 8192) :
    posTerms x lab (ix2 r c)
      = if TripletSpec.posSel ee ll r c then TripletSpec.one - TripletSpec.sim ee r c else 0 := by
  unfold posTerms
  rw [select_apply, select_of_iff _ _ _ _ (posSelM_eq_one_iff x lab r c)]
  unfold oneMinusSim oneFull oneScalar posZeroFull posZeroConv posZeroScalar
  rw [subf_apply, overSquare_apply, constant_apply, simT_apply, zeroOverSquare_apply]

theorem posSumV_apply (r : Fin 8192) : posSumV x lab (ix1 r) = TripletSpec.posSum ee ll r := by
  unfold posSumV posSumInit
  rw [rowSum_apply]
  exact Finset.sum_congr rfl fun c _ => posTerms_apply x lab r c

theorem expTerms_apply (r c : Fin 8192) :
    expTerms x lab (ix2 r c)
      = if TripletSpec.negSel ee ll r c
          then Ideal.exp (TripletSpec.forty * (TripletSpec.sim ee r c - TripletSpec.half)) else 0 := by
  unfold expTerms
  rw [select_apply, select_of_iff _ _ _ _ (negSelM_eq_one_iff x lab r c)]
  unfold expScaled scaled simMinusHalf fortyFull fortyScalar halfFull halfScalar expZeroFull expZeroConv expZeroScalar
  rw [hostExp_apply, mulf_apply, subf_apply, overSquare_apply, overSquare_apply, constant_apply, constant_apply,
    simT_apply, zeroOverSquare_apply]

theorem expSumV_apply (r : Fin 8192) : expSumV x lab (ix1 r) = TripletSpec.expSum ee ll r := by
  unfold expSumV expSumInit
  rw [rowSum_apply]
  exact Finset.sum_congr rfl fun c _ => expTerms_apply x lab r c

theorem negTerms_apply (r c : Fin 8192) :
    negTerms x lab (ix2 r c) = if TripletSpec.negSel ee ll r c then TripletSpec.sim ee r c else 0 := by
  unfold negTerms
  rw [select_apply, select_of_iff _ _ _ _ (negSelM_eq_one_iff x lab r c)]
  unfold negZeroFull negZeroConv negZeroScalar
  rw [simT_apply, zeroOverSquare_apply]

theorem negSumV_apply (r : Fin 8192) : negSumV x lab (ix1 r) = TripletSpec.negSum ee ll r := by
  unfold negSumV negSumInit
  rw [rowSum_apply]
  exact Finset.sum_congr rfl fun c _ => negTerms_apply x lab r c

theorem posLoss_apply (r : Fin 8192) :
    posLoss x lab (ix1 r)
      = if 0 < TripletSpec.posCnt ee ll r
          then Ideal.div (TripletSpec.posSum ee ll r) (max (TripletSpec.cnt (TripletSpec.posCnt ee ll r)) TripletSpec.one)
          else 0 := by
  unfold posLoss
  rw [select_apply]
  unfold posAny posZeroCnt posMean posCntF posCntClamped posOneCnt posLossZero posLossZeroConv posLossZeroScalar
  rw [cmpi_apply, overVector_apply, constantI_apply, hostDivf_apply, sitofp_ideal_apply, maxsi_apply, overVector_apply,
    constantI_apply, posCntV_apply, posSumV_apply, zeroOverVector_apply,
    select_of_iff _ _ _ _ (sgt_zero_ofNat _ (posCnt_le x lab r)), sitofp_maxsi_one _ (posCnt_le x lab r)]

theorem negLoss_apply (r : Fin 8192) :
    negLoss x lab (ix1 r)
      = if 0 < TripletSpec.negCnt ee ll r
          then TripletSpec.inv20 * Ideal.log1p (TripletSpec.expSum ee ll r)
            + Ideal.div (TripletSpec.negSum ee ll r) (max (TripletSpec.cnt (TripletSpec.negCnt ee ll r)) TripletSpec.one)
          else 0 := by
  unfold negLoss
  rw [select_apply]
  unfold negAny negZeroCnt negBody logScaled inv20V inv20Scalar logTerm negMean negCntF negCntClamped negOneCnt
    negLossZero negLossZeroConv negLossZeroScalar
  rw [cmpi_apply, overVector_apply, constantI_apply, addf_apply, mulf_apply, overVector_apply, constant_apply,
    hostLog1p_apply, hostDivf_apply, sitofp_ideal_apply, maxsi_apply, overVector_apply, constantI_apply,
    negCntV_apply, expSumV_apply, negSumV_apply, zeroOverVector_apply,
    select_of_iff _ _ _ _ (sgt_zero_ofNat _ (negCnt_le x lab r)), sitofp_maxsi_one _ (negCnt_le x lab r)]

theorem rowLossV_apply (r : Fin 8192) : rowLossV x lab (ix1 r) = TripletSpec.rowLoss ee ll r := by
  unfold rowLossV TripletSpec.rowLoss
  rw [addf_apply, posLoss_apply, negLoss_apply]

theorem lossOut_eq : lossOut (F := Ideal) x lab = fun _ => TripletSpec.loss ee ll := by
  funext j
  unfold lossOut nRowsScalar lossSum lossSumInit TripletSpec.loss
  rw [hostDivf_apply, constant_apply, hostReduceAdd_apply,
    Ideal.hostReduceAdd_total reducesTo_S8192_S_d0 (fun b => b.elim0), constant_apply, Ideal.ofBits_zero_f32, zero_add,
    MaskCount.sum_idx1]
  exact congrArg (fun t => Ideal.div t TripletSpec.nRows) (Finset.sum_congr rfl fun r _ => rowLossV_apply x lab r)

theorem tripOut_eq (halve : BitVec 32 → BitVec 32)
    (hh : ∀ (v : IVec S8192 32) (r : Fin 8192), floorDiv2 v (ix1 r) = halve (v (ix1 r))) :
    tripOut (F := Ideal) x lab = fun _ => TripletSpec.triplets ee ll halve := by
  classical
  funext j
  unfold tripOut tripInit TripletSpec.triplets
  have hall : (Finset.univ.filter fun i : S8192.Idx => reducesTo_S8192_S_d0.drop i = j) = Finset.univ :=
    Finset.filter_true_of_mem fun i _ => funext fun b => b.elim0
  rw [Host.reduce_eq_fold, hall, constantI_apply, fold_addi_eq_ofNat_sum, MaskCount.sum_idx1]
  refine congrArg (BitVec.ofNat 32) (Finset.sum_congr rfl fun r _ => ?_)
  unfold halfCntV
  rw [hh, negCntV_apply]

theorem zeroOut_eq : zeroOut = fun _ => 0#32 := rfl

end Cert.ReferenceIdeal.Read

end
-- ==== Proof.RefWhole.lean ====
/- The reference's three results are the specification's mean loss, sum of halved counts, and 0. -/
import proofs.«180551_j55817394979145_1_alg».proof.Proof.RefRun
import proofs.«180551_j55817394979145_1_alg».proof.Proof.RefRead
import proofs.«180551_j55817394979145_1_alg».proof.Proof.HalfWord

noncomputable section

namespace Cert.ReferenceIdeal.Whole

open Idealize.ShloMosaic Idealize.ShloMosaic.TcCoe Idealize.ShloMosaic.ValueIdx
open Idealize.SL Idealize.SL.Sem
open Cert.ReferenceIdeal Cert.ReferenceIdeal.Facts₀

theorem halve_at_rows (v : IVec S8192 32) (r : Fin 8192) :
    Stages.floorDiv2 v (ix1 r) = TripletSpec.Half.halve (v (ix1 r)) :=
  (show Stages.floorDiv2 v (ix1 r) = TripletSpec.Half.floorDiv2 bcast_S_S8192 v (ix1 r) from rfl).trans
    (TripletSpec.Half.chain_apply bcast_S_S8192 v (ix1 r))

theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v64)
          = (fun _ => TripletSpec.loss (TripletSpec.rowsOf (m ((c.tc : Thread nD τ).loc main_arg0))) (TripletSpec.labsOf (m ((c.tc : Thread nD τ).loc main_arg1))))
      ∧ r.2.mem ((c.tc : Thread nD τ).loc main_v66)
          = (fun _ => TripletSpec.triplets (TripletSpec.rowsOf (m ((c.tc : Thread nD τ).loc main_arg0))) (TripletSpec.labsOf (m ((c.tc : Thread nD τ).loc main_arg1))) TripletSpec.Half.halve)
      ∧ r.2.mem ((c.tc : Thread nD τ).loc main_c_25) = (fun _ => 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r h c => ⟨(h c).1.trans (Read.lossOut_eq _ _),
      (h c).2.1.trans (Read.tripOut_eq _ _ _ halve_at_rows),
      (h c).2.2.1.trans Read.zeroOut_eq,
      (h c).2.2.2.1, (h c).2.2.2.2⟩)
    (Hand.run (F := Ideal) m ρ)

end Cert.ReferenceIdeal.Whole

end
-- ==== Proof.lean ====
/-
  A triplet loss with hard mining: the tiled kernel against the whole-array reference, over the extended reals.

  For 8192 embeddings and a label each, both programs take, per row, the largest inner product among the other rows
  of its label and the smallest among the rows of another label (-10^9 and 10^9 where no column qualifies), select
  the negatives below the first and the positives above the second, and form a row loss and a count; the results are
  the mean row loss, the sum of the halved counts, and 0. The reference works on whole 8192 x 8192 arrays; the kernel
  walks 8 row tiles x 2 phases x 8 column tiles. They agree because a max or min over a row is the fold over its eight
  column tiles, a sum over 8192 columns is the sum of its eight blocks, and a float sum of 0s and 1s is the count.

  The kernel program and its idealization are one text, so one frame proof, stated for any float values, serves both.
-/
import proofs.«180551_j55817394979145_1_alg».proof.Defs
import proofs.«180551_j55817394979145_1_alg».proof.Proof.Gen.Kernel
import proofs.«180551_j55817394979145_1_alg».proof.Proof.Gen.KernelIdeal
import proofs.«180551_j55817394979145_1_alg».proof.Proof.Gen.ReferenceIdeal
import proofs.«180551_j55817394979145_1_alg».proof.Proof.Gen.Pre_finite_inputs
import proofs.«180551_j55817394979145_1_alg».proof.Proof.KernelWhole
import proofs.«180551_j55817394979145_1_alg».proof.Proof.RefWhole

noncomputable section

namespace Cert.Proof

open Idealize.ShloMosaic Idealize.SL.Sem

variable {F : FTy → Type} [FloatOps F]

/-- The two printed kernel programs are the same @main -/
theorem main_same : Cert.Kernel.main (F := F) = Cert.KernelIdeal.main (F := F) := id rfl

/-- and the same table of bodies: the one label's body is the same function. -/
theorem defs_same : Cert.Kernel.defs (F := F) = Cert.KernelIdeal.defs (F := F) := by
  unfold Cert.Kernel.defs Cert.KernelIdeal.defs Cert.Kernel.defs₀ Cert.KernelIdeal.defs₀
  refine congrArg (Pipeline.defs _) (congrArg Defs.onTc (funext fun l => funext fun a => ?_))
  match l, a with
  | 0, (t, s) => rfl

theorem frame_word : Cert.frame_Kernel := fun m ρ _ => by
  rw [defs_same, main_same]; exact Cert.KernelIdeal.Whole.frame m ρ

theorem frame_ideal : Cert.frame_KernelIdeal := fun m ρ _ => Cert.KernelIdeal.Whole.frame m ρ

theorem frame_reference : Cert.frame_ReferenceIdeal := fun m ρ _ =>
  (θ_run (Cert.ReferenceIdeal.defs (F := Ideal)) _ _).mono (fun _ h c => ⟨(h c).2.2.2.1, (h c).2.2.2.2⟩)
    (Cert.ReferenceIdeal.Hand.run (F := Ideal) m ρ)

/-- Both idealized programs end at the specification's mean loss, number of half-pairs, and 0, of the arguments. -/
theorem algebraic : Cert.algebraic_KernelIdeal_ReferenceIdeal := fun m ρ m' ρ' _ hagree =>
  ⟨fun c => fun _ => TripletSpec.loss (Cert.KernelIdeal.Whole.embs m c) (Cert.KernelIdeal.Whole.lbls m c),
   fun c => fun _ => TripletSpec.triplets (Cert.KernelIdeal.Whole.embs m c) (Cert.KernelIdeal.Whole.lbls m c) TripletSpec.Half.halve,
   fun _ => fun _ => 0#32,
   Cert.KernelIdeal.Whole.kernel_run m ρ,
   (θ_run (Cert.ReferenceIdeal.defs (F := Ideal)) _ _).mono
     (fun _ h c => by
       obtain ⟨h1, h2, h3, h4, h5⟩ := h c
       refine ⟨?_, ?_, h3, h4, h5⟩
       · rw [h1, (hagree c).1, (hagree c).2]; rfl
       · rw [h2, (hagree c).1, (hagree c).2]; rfl)
     (Cert.ReferenceIdeal.Whole.reference_run m' ρ')⟩

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
